-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x2500000 : Shape := ⟨2, ![2, 2500000]⟩
abbrev S2500000 : Shape := ⟨1, ![2500000]⟩
abbrev S_ : Shape := ⟨0, ![]⟩
abbrev S1x2500000 : Shape := ⟨2, ![1, 2500000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S2500000 : S_.BroadcastsInDim S2500000 (![] : Fin 0 → Fin S2500000.rank)
  reducesTo_S2500000_S_d0 : S2500000.ReducesTo [0] S_
  slices_S2x2500000_S1x2500000_0_0 : S2x2500000.Slices ![0, 0] S1x2500000
  shapeCasts_S1x2500000_S2500000 : S1x2500000.ShapeCasts S2500000

variable [Facts]

def fn_part1 {F : FTy → Type} [FloatOps F] (main_v8 : IVec S_ 1) (main_v17 : IVec S2500000 1) : IVec S_ 1 :=
  let main_c_4 : IVec S_ 1 := constantI S_ 1 1#1
  let main_v18 : IVec S_ 1 := (fun x v => Host.reduce IntOp.andi x v reducesTo_S2500000_S_d0 h_S_) main_v17 main_c_4
  let main_v19 : IVec S_ 1 := andi main_v8 main_v18
  main_v19

def fn {F : FTy → Type} [FloatOps F] (main_arg0 : FVec F S100000x32 .f32) (main_arg1 : IVec S2x2500000 32) (main_arg2 : FVec F S2500000 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S2500000 .f32 := Host.absf main_arg2
  let main_cst_0 : FVec F S_ .f32 := constant S_ .f32 0x7F800000#32
  let main_v5 : FVec F S2500000 .f32 := broadcastInDim S2500000 ![] bcast_S_S2500000 main_cst_0
  let main_v6 : IVec S2500000 1 := cmpf .olt main_v4 main_v5
  let main_c_1 : IVec S_ 1 := constantI S_ 1 1#1
  let main_v7 : IVec S_ 1 := (fun x v => Host.reduce IntOp.andi x v reducesTo_S2500000_S_d0 h_S_) main_v6 main_c_1
  let main_v8 : IVec S_ 1 := andi main_v3 main_v7
  let main_v9 : IVec S1x2500000 32 := (extractStridedSlice S1x2500000 ![0, 0] · slices_S2x2500000_S1x2500000_0_0) main_arg1
  let main_v10 : IVec S2500000 32 := shapeCast S2500000 main_v9 shapeCasts_S1x2500000_S2500000
  let main_c_2 : IVec S_ 32 := constantI S_ 32 0#32
  let main_v11 : IVec S2500000 32 := broadcastInDim S2500000 ![] bcast_S_S2500000 main_c_2
  let main_v12 : IVec S2500000 1 := cmpi .sge main_v10 main_v11
  let main_v13 : IVec S1x2500000 32 := (extractStridedSlice S1x2500000 ![0, 0] · slices_S2x2500000_S1x2500000_0_0) main_arg1
  let main_v14 : IVec S2500000 32 := shapeCast S2500000 main_v13 shapeCasts_S1x2500000_S2500000
  let main_c_3 : IVec S_ 32 := constantI S_ 32 100000#32
  let main_v15 : IVec S2500000 32 := broadcastInDim S2500000 ![] bcast_S_S2500000 main_c_3
  let main_v16 : IVec S2500000 1 := cmpi .slt main_v14 main_v15
  let main_v17 : IVec S2500000 1 := andi main_v12 main_v16
  fn_part1 (F := F) main_v8 main_v17
-- ==== Kernel.lean ====
abbrev S100000x32 : Shape := ⟨2, ![100000, 32]⟩
abbrev S2x2500000 : Shape := ⟨2, ![2, 2500000]⟩
abbrev S2500000 : Shape := ⟨1, ![2500000]⟩
abbrev S1x2500000 : Shape := ⟨2, ![1, 2500000]⟩
abbrev S_ : Shape := ⟨0, ![]⟩
abbrev S100352x32 : Shape := ⟨2, ![100352, 32]⟩
abbrev S2500608 : Shape := ⟨1, ![2500608]⟩
abbrev S1x2500608 : Shape := ⟨2, ![1, 2500608]⟩
abbrev S2500608x32 : Shape := ⟨2, ![2500608, 32]⟩
abbrev S2048x32 : Shape := ⟨2, ![2048, 32]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 47
  | .vmem => 32
  | .smem => 0
  | _ => 0

abbrev bufTy : (tb : Table) → Fin (tcTables nBuf tb) → BufTy
  | .hbm, ⟨0, _⟩ => ⟨S100000x32, .f32⟩
  | .hbm, ⟨1, _⟩ => ⟨S2x2500000, .i32⟩
  | .hbm, ⟨2, _⟩ => ⟨S2500000, .f32⟩
  | .hbm, ⟨3, _⟩ => ⟨S1x2500000, .i32⟩
  | .hbm, ⟨4, _⟩ => ⟨S2500000, .i32⟩
  | .hbm, ⟨5, _⟩ => ⟨S1x2500000, .i32⟩
  | .hbm, ⟨6, _⟩ => ⟨S2500000, .i32⟩
  | .hbm, ⟨7, _⟩ => ⟨S100000x32, .bf16⟩
  | .hbm, ⟨8, _⟩ => ⟨S_, .i32⟩
  | .hbm, ⟨9, _⟩ => ⟨S_, .bf16⟩
  | .hbm, ⟨10, _⟩ => ⟨S100352x32, .bf16⟩
  | .hbm, ⟨11, _⟩ => ⟨S_, .i32⟩
  | .hbm, ⟨12, _⟩ => ⟨S_, .i32⟩
  | .hbm, ⟨13, _⟩ => ⟨S2500608, .i32⟩
  | .hbm, ⟨14, _⟩ => ⟨S1x2500608, .i32⟩
  | .hbm, ⟨15, _⟩ => ⟨S_, .i32⟩
  | .hbm, ⟨16, _⟩ => ⟨S_, .i32⟩
  | .hbm, ⟨17, _⟩ => ⟨S2500608, .i32⟩
  | .hbm, ⟨18, _⟩ => ⟨S1x2500608, .i32⟩
  | .hbm, ⟨19, _⟩ => ⟨S_, .i32⟩
  | .hbm, ⟨20, _⟩ => ⟨S_, .f32⟩
  | .hbm, ⟨21, _⟩ => ⟨S2500608, .f32⟩
  | .hbm, ⟨22, _⟩ => ⟨S2500608, .bf16⟩
  | .hbm, ⟨23, _⟩ => ⟨S1x2500608, .bf16⟩
  | .hbm, ⟨24, _⟩ => ⟨S2500608x32, .bf16⟩
  | .hbm, ⟨25, _⟩ => ⟨S100352x32, .f32⟩
  | .hbm, ⟨26, _⟩ => ⟨S100000x32, .f32⟩
  | .hbm, ⟨27, _⟩ => ⟨S100000x32, .bf16⟩
  | .hbm, ⟨28, _⟩ => ⟨S_, .i32⟩
  | .hbm, ⟨29, _⟩ => ⟨S_, .bf16⟩
  | .hbm, ⟨30, _⟩ => ⟨S100352x32, .bf16⟩
  | .hbm, ⟨31, _⟩ => ⟨S_, .i32⟩
  | .hbm, ⟨32, _⟩ => ⟨S_, .i32⟩
  | .hbm, ⟨33, _⟩ => ⟨S2500608, .i32⟩
  | .hbm, ⟨34, _⟩ => ⟨S1x2500608, .i32⟩
  | .hbm, ⟨35, _⟩ => ⟨S_, .i32⟩
  | .hbm, ⟨36, _⟩ => ⟨S_, .i32⟩
  | .hbm, ⟨37, _⟩ => ⟨S2500608, .i32⟩
  | .hbm, ⟨38, _⟩ => ⟨S1x2500608, .i32⟩
  | .hbm, ⟨39, _⟩ => ⟨S_, .i32⟩
  | .hbm, ⟨40, _⟩ => ⟨S_, .f32⟩
  | .hbm, ⟨41, _⟩ => ⟨S2500608, .f32⟩
  | .hbm, ⟨42, _⟩ => ⟨S2500608, .bf16⟩
  | .hbm, ⟨43, _⟩ => ⟨S1x2500608, .bf16⟩
  | .hbm, ⟨44, _⟩ => ⟨S2500608x32, .bf16⟩
  | .hbm, ⟨45, _⟩ => ⟨S100352x32, .f32⟩
  | .hbm, ⟨46, _⟩ => ⟨S100000x32, .f32⟩
  | .local _ .vmem, ⟨0, _⟩ => ⟨S2048x32, .bf16⟩
  | .local _ .vmem, ⟨1, _⟩ => ⟨S2048x32, .bf16⟩
  | .local _ .vmem, ⟨2, _⟩ => ⟨S1x2048, .i32⟩
  | .local _ .vmem, ⟨3, _⟩ => ⟨S1x2048, .i32⟩
  | .local _ .vmem, ⟨4, _⟩ => ⟨S1x2048, .bf16⟩
  | .local _ .vmem, ⟨5, _⟩ => ⟨S1x2048, .bf16⟩
  | .local _ .vmem, ⟨6, _⟩ => ⟨S2048x32, .bf16⟩
  | .local _ .vmem, ⟨7, _⟩ => ⟨S2048x32, .bf16⟩
  | .local _ .vmem, ⟨8, _⟩ => ⟨S2048x32, .f32⟩
  | .local _ .vmem, ⟨9, _⟩ => ⟨S2048x32, .bf16⟩
  | .local _ .vmem, ⟨10, _⟩ => ⟨S2048x32, .bf16⟩
  | .local _ .vmem, ⟨11, _⟩ => ⟨S1x2048, .i32⟩
  | .local _ .vmem, ⟨12, _⟩ => ⟨S1x2048, .i32⟩
  | .local _ .vmem, ⟨13, _⟩ => ⟨S2048x32, .f32⟩
  | .local _ .vmem, ⟨14, _⟩ => ⟨S2048x32, .f32⟩
  | .local _ .vmem, ⟨15, _⟩ => ⟨S2048x32, .f32⟩
  | .local _ .vmem, ⟨16, _⟩ => ⟨S2048x32, .bf16⟩
  | .local _ .vmem, ⟨17, _⟩ => ⟨S2048x32, .bf16⟩
  | .local _ .vmem, ⟨18, _⟩ => ⟨S1x2048, .i32⟩
  | .local _ .vmem, ⟨19, _⟩ => ⟨S1x2048, .i32⟩
  | .local _ .vmem, ⟨20, _⟩ => ⟨S1x2048, .bf16⟩
  | .local _ .vmem, ⟨21, _⟩ => ⟨S1x2048, .bf16⟩
  | .local _ .vmem, ⟨22, _⟩ => ⟨S2048x32, .bf16⟩
  | .local _ .vmem, ⟨23, _⟩ => ⟨S2048x32, .bf16⟩
  | .local _ .vmem, ⟨24, _⟩ => ⟨S2048x32, .f32⟩
  | .local _ .vmem, ⟨25, _⟩ => ⟨S2048x32, .bf16⟩
  | .local _ .vmem, ⟨26, _⟩ => ⟨S2048x32, .bf16⟩
  | .local _ .vmem, ⟨27, _⟩ => ⟨S1x2048, .i32⟩
  | .local _ .vmem, ⟨28, _⟩ => ⟨S1x2048, .i32⟩
  | .local _ .vmem, ⟨29, _⟩ => ⟨S2048x32, .f32⟩
  | .local _ .vmem, ⟨30, _⟩ => ⟨S2048x32, .f32⟩
  | .local _ .vmem, ⟨31, _⟩ => ⟨S2048x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call2_v0 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_call3_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_call4_v0 : Ref sig .tc := ⟨.hbm, 29, rfl⟩
abbrev main_v17 : Ref sig .tc := ⟨.hbm, 30, rfl⟩
abbrev main_c_4 : Ref sig .tc := ⟨.hbm, 31, rfl⟩
abbrev main_call5_v0 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_call6_v0 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_call7_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨2, ![1221, 49], ![false, false]⟩

def k0_cond2 (i : grid0.Coords) : BitVec 1 :=
  let arg1 : BitVec 32 := BitVec.ofNat 32 (i 1).val
  let c48_i32 : BitVec 32 := 48#32
  let v27 : BitVec 1 := Scalar.cmpi .eq arg1 c48_i32
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![49, 1221], ![false, false]⟩

def k1_cond2 (i : grid1.Coords) : BitVec 1 :=
  let arg1 : BitVec 32 := BitVec.ofNat 32 (i 1).val
  let c1220_i32 : BitVec 32 := 1220#32
  let v23 : BitVec 1 := Scalar.cmpi .eq arg1 c1220_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![1221, 49], ![false, false]⟩

def k2_cond2 (i : grid2.Coords) : BitVec 1 :=
  let arg1 : BitVec 32 := BitVec.ofNat 32 (i 1).val
  let c48_i32 : BitVec 32 := 48#32
  let v27 : BitVec 1 := Scalar.cmpi .eq arg1 c48_i32
  let v28 : BitVec 32 := Scalar.extui v27
  let c0_i32_10 : BitVec 32 := 0#32
  let v29 : BitVec 1 := Scalar.cmpi .ne v28 c0_i32_10
  v29

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x32 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x32 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![49, 1221], ![false, false]⟩

def k3_cond2 (i : grid3.Coords) : BitVec 1 :=
  let arg1 : BitVec 32 := BitVec.ofNat 32 (i 1).val
  let c1220_i32 : BitVec 32 := 1220#32
  let v23 : BitVec 1 := Scalar.cmpi .eq arg1 c1220_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x32 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x2048 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bitsLt_bf16_f32 : FTy.bits .bf16 < FTy.bits .f32
  pads_S100000x32_S100352x32_03520_000 : S100000x32.Pads (![0, 0] : Fin 2 → Nat) ![352, 0] ![0, 0] S100352x32
  h_S_ : 0 < S_.numel
  pads_S2500000_S2500608_06080 : S2500000.Pads (![0] : Fin 1 → Nat) ![608] ![0] S2500608
  shapeCasts_S2500608_S1x2500608 : S2500608.ShapeCasts S1x2500608
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  iota_S2048x1_d0_w32 : S2048x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  natLt_1_32 : 1 < 32
  packedbf16_S2048x32_S2048x32_0_0 : (Rect.unit (s := S2048x32) ![0, 0] S2048x32.size inb_S2048x32_S2048x32_0_0).PackedRows (EltTy.packing .bf16)
  slices_S100352x32_S100000x32_0_0 : S100352x32.Slices ![0, 0] S100000x32
  dot_S2048x2048_S2048x32_S2048x32_0_0_1_1_n_n_wf : DotDims.WF S2048x2048 S2048x32 S2048x32 [0] [0] [1] [1] [] []
  dot_S2048x2048_S2048x32_S2048x32_1_0_0_1_n_n_wf : DotDims.WF S2048x2048 S2048x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S100352x32.size a
  hwx0_0 : ∀ i : grid0.Coords, EltTy.bits .bf16 = 32 ∨ (Rect.block (s := S100352x32) S2048x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2500608.size a
  hwx0_1 : ∀ i : grid0.Coords, EltTy.bits .i32 = 32 ∨ (Rect.block (s := S1x2500608) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2500608.size a
  hwx0_2 : ∀ i : grid0.Coords, EltTy.bits .bf16 = 32 ∨ (Rect.block (s := S1x2500608) S1x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S2500608x32.size a
  hwx0_3 : ∀ i : grid0.Coords, EltTy.bits .bf16 = 32 ∨ (Rect.block (s := S2500608x32) S2048x32.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x32.size a ≤ S2500608x32.size a
  hwx1_0 : ∀ i : grid1.Coords, EltTy.bits .bf16 = 32 ∨ (Rect.block (s := S2500608x32) S2048x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2500608.size a
  hwx1_1 : ∀ i : grid1.Coords, EltTy.bits .i32 = 32 ∨ (Rect.block (s := S1x2500608) S1x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x32.size a ≤ S100352x32.size a
  hwx1_2 : ∀ i : grid1.Coords, EltTy.bits .f32 = 32 ∨ (Rect.block (s := S100352x32) S2048x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x32.size a ≤ S100352x32.size a
  hwx2_0 : ∀ i : grid2.Coords, EltTy.bits .bf16 = 32 ∨ (Rect.block (s := S100352x32) S2048x32.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2500608.size a
  hwx2_1 : ∀ i : grid2.Coords, EltTy.bits .i32 = 32 ∨ (Rect.block (s := S1x2500608) S1x2048.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2500608.size a
  hwx2_2 : ∀ i : grid2.Coords, EltTy.bits .bf16 = 32 ∨ (Rect.block (s := S1x2500608) S1x2048.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x32.size a ≤ S2500608x32.size a
  hwx2_3 : ∀ i : grid2.Coords, EltTy.bits .bf16 = 32 ∨ (Rect.block (s := S2500608x32) S2048x32.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x32.size a ≤ S2500608x32.size a
  hwx3_0 : ∀ i : grid3.Coords, EltTy.bits .bf16 = 32 ∨ (Rect.block (s := S2500608x32) S2048x32.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048.size a ≤ S1x2500608.size a
  hwx3_1 : ∀ i : grid3.Coords, EltTy.bits .i32 = 32 ∨ (Rect.block (s := S1x2500608) S1x2048.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x32.size a ≤ S100352x32.size a
  hwx3_2 : ∀ i : grid3.Coords, EltTy.bits .f32 = 32 ∨ (Rect.block (s := S100352x32) S2048x32.size (cc3_transform_2 i) (hinb3_2 i)).WholeWords (EltTy.packing .f32)

variable [Facts₀]

def dot_S2048x2048_S2048x32_S2048x32_0_0_1_1_n_n : DotDims S2048x2048 S2048x32 S2048x32 where
  lhsContracting := [0]
  rhsContracting := [0]
  lhsNonContracting := [1]
  rhsNonContracting := [1]
  lhsBatch := []
  rhsBatch := []
  wf := dot_S2048x2048_S2048x32_S2048x32_0_0_1_1_n_n_wf
def dot_S2048x2048_S2048x32_S2048x32_1_0_0_1_n_n : DotDims S2048x2048 S2048x32 S2048x32 where
  lhsContracting := [1]
  rhsContracting := [0]
  lhsNonContracting := [0]
  rhsNonContracting := [1]
  lhsBatch := []
  rhsBatch := []
  wf := dot_S2048x2048_S2048x32_S2048x32_1_0_0_1_n_n_wf

abbrev win0_0 : Pipeline.Window sig grid0 :=
  Pipeline.Window.ofSpec (Memref.whole main_v5) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2048x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v13) S2048x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2048x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v17) S2048x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S2048x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v25) S2048x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S1x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S2048x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S100000x32 : Shape := ⟨2, ![100000, 32]⟩
abbrev S2x2500000 : Shape := ⟨2, ![2, 2500000]⟩
abbrev S2500000 : Shape := ⟨1, ![2500000]⟩
abbrev S1x2500000 : Shape := ⟨2, ![1, 2500000]⟩
abbrev S_ : Shape := ⟨0, ![]⟩
abbrev S2500000x1 : Shape := ⟨2, ![2500000, 1]⟩
abbrev S2500000x32 : Shape := ⟨2, ![2500000, 32]⟩

abbrev nBuf : Space → Nat
  | .hbm => 39
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x2500000, .i32⟩
  | .hbm, ⟨2, _⟩ => ⟨S2500000, .f32⟩
  | .hbm, ⟨3, _⟩ => ⟨S1x2500000, .i32⟩
  | .hbm, ⟨4, _⟩ => ⟨S2500000, .i32⟩
  | .hbm, ⟨5, _⟩ => ⟨S1x2500000, .i32⟩
  | .hbm, ⟨6, _⟩ => ⟨S2500000, .i32⟩
  | .hbm, ⟨7, _⟩ => ⟨S_, .i32⟩
  | .hbm, ⟨8, _⟩ => ⟨S2500000, .i32⟩
  | .hbm, ⟨9, _⟩ => ⟨S2500000, .i1⟩
  | .hbm, ⟨10, _⟩ => ⟨S_, .i32⟩
  | .hbm, ⟨11, _⟩ => ⟨S2500000, .i32⟩
  | .hbm, ⟨12, _⟩ => ⟨S2500000, .i32⟩
  | .hbm, ⟨13, _⟩ => ⟨S2500000, .i32⟩
  | .hbm, ⟨14, _⟩ => ⟨S2500000x1, .i32⟩
  | .hbm, ⟨15, _⟩ => ⟨S2500000x32, .f32⟩
  | .hbm, ⟨16, _⟩ => ⟨S2500000x1, .f32⟩
  | .hbm, ⟨17, _⟩ => ⟨S2500000x32, .f32⟩
  | .hbm, ⟨18, _⟩ => ⟨S2500000x32, .f32⟩
  | .hbm, ⟨19, _⟩ => ⟨S_, .f32⟩
  | .hbm, ⟨20, _⟩ => ⟨S100000x32, .f32⟩
  | .hbm, ⟨21, _⟩ => ⟨S2500000x1, .i32⟩
  | .hbm, ⟨22, _⟩ => ⟨S100000x32, .f32⟩
  | .hbm, ⟨23, _⟩ => ⟨S_, .i32⟩
  | .hbm, ⟨24, _⟩ => ⟨S2500000, .i32⟩
  | .hbm, ⟨25, _⟩ => ⟨S2500000, .i1⟩
  | .hbm, ⟨26, _⟩ => ⟨S_, .i32⟩
  | .hbm, ⟨27, _⟩ => ⟨S2500000, .i32⟩
  | .hbm, ⟨28, _⟩ => ⟨S2500000, .i32⟩
  | .hbm, ⟨29, _⟩ => ⟨S2500000, .i32⟩
  | .hbm, ⟨30, _⟩ => ⟨S2500000x1, .i32⟩
  | .hbm, ⟨31, _⟩ => ⟨S2500000x32, .f32⟩
  | .hbm, ⟨32, _⟩ => ⟨S2500000x1, .f32⟩
  | .hbm, ⟨33, _⟩ => ⟨S2500000x32, .f32⟩
  | .hbm, ⟨34, _⟩ => ⟨S2500000x32, .f32⟩
  | .hbm, ⟨35, _⟩ => ⟨S_, .f32⟩
  | .hbm, ⟨36, _⟩ => ⟨S100000x32, .f32⟩
  | .hbm, ⟨37, _⟩ => ⟨S2500000x1, .i32⟩
  | .hbm, ⟨38, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S2500000_S2500000x1_0 : S2500000.BroadcastsInDim S2500000x1 (![0] : Fin 1 → Fin S2500000x1.rank)
  bcast_S2500000x1_S2500000x32_0_1 : S2500000x1.BroadcastsInDim S2500000x32 (![0, 1] : Fin 2 → Fin S2500000x32.rank)
  bcast_S_S100000x32 : S_.BroadcastsInDim S100000x32 (![] : Fin 0 → Fin S100000x32.rank)
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1

variable [Facts₀]

def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf

class Facts : Prop extends Facts₀ where

variable [Facts]
-- ==== Proof.KI.G0b.lean ====
import proofs.«430617_j5463198400657_1_alg».proof.Proof.Gen.KernelIdeal.Launch
import proofs.«430617_j5463198400657_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem coord0_1 (t : Fin cfg0.N) : ((grid0.coords t) 1).val = t.val % 49 := by
  show t.val / grid0.stride 1 % grid0.bound 1 = t.val % 49
  rw [show grid0.stride 1 = 1 from by decide, show grid0.bound 1 = 49 from rfl, Nat.div_one]

theorem cond0_0_node : ∀ j : Fin 49,
    (Scalar.cmpi .ne (Scalar.extui (Scalar.cmpi .eq (BitVec.ofNat 32 j.val) 0#32)) 0#32) = 1#1 ↔ j.val = 0 := by
  decide +kernel

theorem cond0_1_node : ∀ j : Fin 49,
    (Scalar.cmpi .ne (Scalar.extui (Scalar.cmpi .eq (BitVec.ofNat 32 j.val) 48#32)) 0#32) = 1#1 ↔ j.val = 48 := by
  decide +kernel

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 49 = 0 := fun t => by
  unfold cond0_0; rw [coord0_1 t]
  exact cond0_0_node ⟨t.val % 49, Nat.mod_lt _ (by decide)⟩

abbrev cond0_1 (i : grid0.Coords) : Prop := k0_cond2 i = 1#1

theorem hcond0_1 : ∀ t : Fin cfg0.N, cond0_1 (grid0.coords t) ↔ t.val % 49 = 48 := fun t => by
  unfold cond0_1 k0_cond2; dsimp only; rw [coord0_1 t]
  exact cond0_1_node ⟨t.val % 49, Nat.mod_lt _ (by decide)⟩

-- The body run in each of the three cases a grid point can be in: the first, an inner, or the last node block of its edge block.
section Body
variable (c : Dev nD) (i : grid0.Coords) (arg2 : Memref sig .tc .vmem S2048x32 .bf16) (harg2 : arg2.IsWhole) (arg3 : Memref sig .tc .vmem S1x2048 .i32) (harg3 : arg3.IsWhole) (arg4 : Memref sig .tc .vmem S1x2048 .bf16) (harg4 : arg4.IsWhole) (arg5 : Memref sig .tc .vmem S2048x32 .bf16) (harg5 : arg5.IsWhole) (arg6 : Memref sig .tc .vmem S2048x32 .f32) (harg6 : arg6.IsWhole)

set_option maxHeartbeats 1000000 in
noncomputable def kernelRun0_A (hc0 : cond0_0 i) (hc1 : ¬cond0_1 i)
    (x0 : Vec F S2048x32 .bf16) (x1 : Vec F S1x2048 .i32) (x2 : Vec F S1x2048 .bf16) :
    Σ' (L3 : List (View.Piece (Elt F) S2048x32 .bf16)), { LS0 : List (View.Piece (Elt F) S2048x32 .f32) //
      ∀ (xi3 : Vec F S2048x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
noncomputable def kernelRun0_B (hc0 : ¬cond0_0 i) (hc1 : ¬cond0_1 i)
    (x0 : Vec F S2048x32 .bf16) (x1 : Vec F S1x2048 .i32) (x2 : Vec F S1x2048 .bf16) (xs0 : Vec F S2048x32 .f32) :
    Σ' (L3 : List (View.Piece (Elt F) S2048x32 .bf16)), { LS0 : List (View.Piece (Elt F) S2048x32 .f32) //
      ∀ (xi3 : Vec F S2048x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
noncomputable def kernelRun0_C (hc0 : ¬cond0_0 i) (hc1 : cond0_1 i)
    (x0 : Vec F S2048x32 .bf16) (x1 : Vec F S1x2048 .i32) (x2 : Vec F S1x2048 .bf16) (xs0 : Vec F S2048x32 .f32) :
    Σ' (L3 : List (View.Piece (Elt F) S2048x32 .bf16)), { LS0 : List (View.Piece (Elt F) S2048x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

def out0_A_3 (hc0 : cond0_0 i) (hc1 : ¬cond0_1 i)
    (x0 : Vec F S2048x32 .bf16) (x1 : Vec F S1x2048 .i32) (x2 : Vec F S1x2048 .bf16) : Vec F S2048x32 .bf16 :=
  View.canon (kernelRun0_A c i arg2 harg2 arg3 harg3 arg4 harg4 arg5 harg5 arg6 harg6 hc0 hc1 x0 x1 x2).1

theorem scover0_A_0 (hc0 : cond0_0 i) (hc1 : ¬cond0_1 i)
    (x0 : Vec F S2048x32 .bf16) (x1 : Vec F S1x2048 .i32) (x2 : Vec F S1x2048 .bf16) (y : S2048x32.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S2048x32.size (by sl_kernel_rfl) y

def sout0_A_0 (hc0 : cond0_0 i) (hc1 : ¬cond0_1 i)
    (x0 : Vec F S2048x32 .bf16) (x1 : Vec F S1x2048 .i32) (x2 : Vec F S1x2048 .bf16) : Vec F S2048x32 .f32 :=
  arg6.view.read (Elt F) (arg6.view.writes (Elt F) arg6.view.junk (kernelRun0_A c i arg2 harg2 arg3 harg3 arg4 harg4 arg5 harg5 arg6 harg6 hc0 hc1 x0 x1 x2).2.1)

def out0_B_3 (hc0 : ¬cond0_0 i) (hc1 : ¬cond0_1 i)
    (x0 : Vec F S2048x32 .bf16) (x1 : Vec F S1x2048 .i32) (x2 : Vec F S1x2048 .bf16) (xs0 : Vec F S2048x32 .f32) : Vec F S2048x32 .bf16 :=
  View.canon (kernelRun0_B c i arg2 harg2 arg3 harg3 arg4 harg4 arg5 harg5 arg6 harg6 hc0 hc1 x0 x1 x2 xs0).1

theorem scover0_B_0 (hc0 : ¬cond0_0 i) (hc1 : ¬cond0_1 i)
    (x0 : Vec F S2048x32 .bf16) (x1 : Vec F S1x2048 .i32) (x2 : Vec F S1x2048 .bf16) (xs0 : Vec F S2048x32 .f32) (y : S2048x32.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S2048x32.size (by sl_kernel_rfl) y

def sout0_B_0 (hc0 : ¬cond0_0 i) (hc1 : ¬cond0_1 i)
    (x0 : Vec F S2048x32 .bf16) (x1 : Vec F S1x2048 .i32) (x2 : Vec F S1x2048 .bf16) (xs0 : Vec F S2048x32 .f32) : Vec F S2048x32 .f32 :=
  arg6.view.read (Elt F) (arg6.view.writes (Elt F) arg6.view.junk (kernelRun0_B c i arg2 harg2 arg3 harg3 arg4 harg4 arg5 harg5 arg6 harg6 hc0 hc1 x0 x1 x2 xs0).2.1)

theorem cover0_C_3 (hc0 : ¬cond0_0 i) (hc1 : cond0_1 i)
    (x0 : Vec F S2048x32 .bf16) (x1 : Vec F S1x2048 .i32) (x2 : Vec F S1x2048 .bf16) (xs0 : Vec F S2048x32 .f32) (y : S2048x32.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S2048x32.size (by sl_kernel_rfl) y

def out0_C_3 (hc0 : ¬cond0_0 i) (hc1 : cond0_1 i)
    (x0 : Vec F S2048x32 .bf16) (x1 : Vec F S1x2048 .i32) (x2 : Vec F S1x2048 .bf16) (xs0 : Vec F S2048x32 .f32) : Vec F S2048x32 .bf16 :=
  View.canon (kernelRun0_C c i arg2 harg2 arg3 harg3 arg4 harg4 arg5 harg5 arg6 harg6 hc0 hc1 x0 x1 x2 xs0).1

theorem scover0_C_0 (hc0 : ¬cond0_0 i) (hc1 : cond0_1 i)
    (x0 : Vec F S2048x32 .bf16) (x1 : Vec F S1x2048 .i32) (x2 : Vec F S1x2048 .bf16) (xs0 : Vec F S2048x32 .f32) (y : S2048x32.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S2048x32.size (by sl_kernel_rfl) y

def sout0_C_0 (hc0 : ¬cond0_0 i) (hc1 : cond0_1 i)
    (x0 : Vec F S2048x32 .bf16) (x1 : Vec F S1x2048 .i32) (x2 : Vec F S1x2048 .bf16) (xs0 : Vec F S2048x32 .f32) : Vec F S2048x32 .f32 :=
  arg6.view.read (Elt F) (arg6.view.writes (Elt F) arg6.view.junk (kernelRun0_C c i arg2 harg2 arg3 harg3 arg4 harg4 arg5 harg5 arg6 harg6 hc0 hc1 x0 x1 x2 xs0).2.1)

theorem hz0 : (![0, 0] : Fin 2 → Nat) = fun _ => 0 :=
  funext fun a => match a with | ⟨0, _⟩ => rfl | ⟨1, _⟩ => rfl

theorem sout0_A_eq (hc0 : cond0_0 i) (hc1 : ¬cond0_1 i)
    (x0 : Vec F S2048x32 .bf16) (x1 : Vec F S1x2048 .i32) (x2 : Vec F S1x2048 .bf16) :
    sout0_A_0 c i arg2 harg2 arg3 harg3 arg4 harg4 arg5 harg5 arg6 harg6 hc0 hc1 x0 x1 x2 = k0_pay2 i x1 x2 x0 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S2048x32) hz0, View.readCov_unit_zero (S := S2048x32) _ hz0]
  simp only [View.readAt_eq_ld, harg2.read_unread, harg3.read_unread, harg4.read_unread, harg6.read_unread, View.ld_unit_zero (S := S2048x32) hz0, View.ld_unit_zero (S := S1x2048) hz0]

theorem sout0_B_eq (hc0 : ¬cond0_0 i) (hc1 : ¬cond0_1 i)
    (x0 : Vec F S2048x32 .bf16) (x1 : Vec F S1x2048 .i32) (x2 : Vec F S1x2048 .bf16) (xs0 : Vec F S2048x32 .f32) :
    sout0_B_0 c i arg2 harg2 arg3 harg3 arg4 harg4 arg5 harg5 arg6 harg6 hc0 hc1 x0 x1 x2 xs0 = k0_pay2 i x1 x2 x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S2048x32) hz0]
  simp only [View.readAt_eq_ld, harg2.read_unread, harg3.read_unread, harg4.read_unread, harg6.read_unread, View.ld_unit_zero (S := S2048x32) hz0, View.ld_unit_zero (S := S1x2048) hz0]

theorem sout0_C_eq (hc0 : ¬cond0_0 i) (hc1 : cond0_1 i)
    (x0 : Vec F S2048x32 .bf16) (x1 : Vec F S1x2048 .i32) (x2 : Vec F S1x2048 .bf16) (xs0 : Vec F S2048x32 .f32) :
    sout0_C_0 c i arg2 harg2 arg3 harg3 arg4 harg4 arg5 harg5 arg6 harg6 hc0 hc1 x0 x1 x2 xs0 = k0_pay2 i x1 x2 x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S2048x32) hz0]
  simp only [View.readAt_eq_ld, harg2.read_unread, harg3.read_unread, harg4.read_unread, harg6.read_unread, View.ld_unit_zero (S := S2048x32) hz0, View.ld_unit_zero (S := S1x2048) hz0]

theorem out0_C_eq (hc0 : ¬cond0_0 i) (hc1 : cond0_1 i)
    (x0 : Vec F S2048x32 .bf16) (x1 : Vec F S1x2048 .i32) (x2 : Vec F S1x2048 .bf16) (xs0 : Vec F S2048x32 .f32) :
    out0_C_3 c i arg2 harg2 arg3 harg3 arg4 harg4 arg5 harg5 arg6 harg6 hc0 hc1 x0 x1 x2 xs0 = k0_pay3 (k0_pay2 i x1 x2 x0 xs0) := by
  unfold out0_C_3 kernelRun0_C
  dsimp only
  sl_unfold_words
  rw [View.canon_unit_zero (S := S2048x32) hz0, View.readCov_unit_zero (S := S2048x32) _ hz0]
  simp only [View.readAt_eq_ld, harg2.read_unread, harg3.read_unread, harg4.read_unread, harg6.read_unread, View.ld_unit_zero (S := S2048x32) hz0, View.ld_unit_zero (S := S1x2048) hz0]

end Body

abbrev scM0_0 : Memref sig .tc .vmem S2048x32 .f32 := Memref.whole cc0_scratch0

theorem index0_3 (t : Fin cfg0.N) : (cfg0.win 3).index t = ![t.val / 49, 0] := by
  have ht : t.val < 59829 := lt_of_lt_of_eq t.isLt N_0
  have h0 : ((grid0.coords t) 0).val = t.val / 49 := by
    show t.val / grid0.stride 0 % grid0.bound 0 = t.val / 49
    rw [show grid0.stride 0 = 49 from by decide, show grid0.bound 0 = 1221 from rfl]
    exact Nat.mod_eq_of_lt (by omega)
  show cc0_transform_3 (grid0.coords t) = _
  unfold cc0_transform_3; dsimp only
  rw [h0, BitVec.toNat_ofNat, Nat.mod_eq_of_lt (by omega)]
  rfl

theorem flushAt0_3 (t : Fin cfg0.N) : (cfg0.win 3).flush t = true ↔ t.val % 49 = 48 := by
  have hN : grid0.N = 59829 := N_0
  have hN' : cfg0.grid.N = 59829 := N_0
  have hN'' : cfg0.N = 59829 := N_0
  have ht : t.val < 59829 := lt_of_lt_of_eq t.isLt hN
  unfold Window.flush
  rw [show (cfg0.win 3).isOut = true from rfl, Bool.true_and, Bool.or_eq_true, decide_eq_true_eq, decide_eq_true_eq]
  constructor
  · rintro (h | ⟨h, hne⟩)
    · omega
    · by_contra hc
      apply hne
      rw [index0_3, index0_3]
      show ![(t.val + 1) / 49, 0] = ![t.val / 49, 0]
      rw [show (t.val + 1) / 49 = t.val / 49 from by omega]
  · intro h
    by_cases hl : t.val + 1 = cfg0.grid.N
    · exact Or.inl hl
    · refine Or.inr ⟨by omega, fun he => ?_⟩
      rw [index0_3, index0_3] at he
      have h0 : (t.val + 1) / 49 = t.val / 49 := congrFun he 0
      omega

theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl

theorem idleAt0_3 (t : Fin cfg0.N) (h1 : ¬cond0_1 (grid0.coords t)) : cfg0.idle 3 (grid0.coords t) = true := by
  show (!(k0_cond2 (grid0.coords t) == 1#1)) = true
  rw [Bool.not_eq_true', beq_eq_false_iff_ne]; exact h1

theorem noFlush0_3 (t : Fin cfg0.N) (h1 : ¬cond0_1 (grid0.coords t)) : (cfg0.win 3).flush t = false :=
  Bool.eq_false_iff.mpr fun hf => h1 ((hcond0_1 t).mpr ((flushAt0_3 t).mp hf))

theorem liveAt0_3 (t : Fin cfg0.N) (h1 : cond0_1 (grid0.coords t)) : cfg0.idle 3 (grid0.coords t) = false := by
  show (!(k0_cond2 (grid0.coords t) == 1#1)) = false
  rw [Bool.not_eq_false', beq_iff_eq]; exact h1

abbrev ms0_0 (t : Fin cfg0.N) : Memref sig .tc .vmem S2048x32 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x32 .bf16 := win0_3.stage (cfg0.slots t 3)
abbrev hs0_3 (t : Fin cfg0.N) : (ms0_3 t).IsWhole := hstage0_3 ((cfg0.slots t 3).cast nbuf0_3)

abbrev bodyPt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

abbrev restBut0 (c : Dev nD) : sProp 𝕄 :=
  Pipeline.scopedRestBut (Ix := Unit) (Name := ℕ) (U := UR sig nD τ) (Lvl := ℕ) (Val := Elt F) spec0 c [cc0_scratch0]

theorem restSplit0 (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f))
          ∗ restBut0 c) :=
  Pipeline.scopedRest_split_of_list spec0 c [cc0_scratch0] (by decide) (by decide)

theorem PhiA0_eq (c : Dev nD) :
    (Pipeline.ΦA spec0 c : sProp 𝕄)
      = iprop(((∃ d, owns (c : Thread nD τ) scM0_0 fullShare d) ∗ restBut0 c) ∗ (∃ r, prngReg c r)) := by
  unfold Pipeline.ΦA; rw [restSplit0]; simp only [scM0_0, owns_whole]; try rfl

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

def atA0 (c : Dev nD) (t : Fin cfg0.N) (h0 : t.val % 49 = 0) (h1 : ¬t.val % 49 = 48) : Vec F S2048x32 .bf16 × Vec F S2048x32 .f32 :=
  (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t))

def atB0 (c : Dev nD) (t : Fin cfg0.N) (h0 : ¬t.val % 49 = 0) (h1 : ¬t.val % 49 = 48) (xs : Vec F S2048x32 .f32) : Vec F S2048x32 .bf16 × Vec F S2048x32 .f32 :=
  (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs)

def atC0 (c : Dev nD) (t : Fin cfg0.N) (h0 : ¬t.val % 49 = 0) (h1 : t.val % 49 = 48) (xs : Vec F S2048x32 .f32) : Vec F S2048x32 .bf16 × Vec F S2048x32 .f32 :=
  (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs)

-- What the output block and the accumulator hold after point `n`, by recursion on `n`.
def outsAt0 (c : Dev nD) : (n : ℕ) → n < cfg0.N → Vec F S2048x32 .bf16 × Vec F S2048x32 .f32
  | 0, hn => atA0 V c ⟨0, hn⟩ (Nat.zero_mod _) (fun h => by (try dsimp only at h); omega)
  | n + 1, hn =>
    if h0 : (n + 1) % 49 = 0 then
      if h1 : (n + 1) % 49 = 48 then False.elim (by omega)
      else atA0 V c ⟨n + 1, hn⟩ h0 h1
    else
      if h1 : (n + 1) % 49 = 48 then atC0 V c ⟨n + 1, hn⟩ h0 h1 (outsAt0 c n (Nat.lt_of_succ_lt hn)).2
      else atB0 V c ⟨n + 1, hn⟩ h0 h1 (outsAt0 c n (Nat.lt_of_succ_lt hn)).2

theorem outsAt0_A (c : Dev nD) (t : Fin cfg0.N) (h0 : t.val % 49 = 0) (h1 : ¬t.val % 49 = 48) :
    outsAt0 V c t.val t.isLt = atA0 V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 49 = 0) (h1 : ¬t.val % 49 = 48) :
    outsAt0 V c t.val t.isLt = atB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 49 = 0) (h1 : t.val % 49 = 48) :
    outsAt0 V c t.val t.isLt = atC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS0 (c : Dev nD) : (n : ℕ) → n ≤ cfg0.N → sProp 𝕄
  | 0, _ => Pipeline.ΦA spec0 c
  | n + 1, hn => iprop((owns (c : Thread nD τ) scM0_0 fullShare ((outsAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare ((outsAt0 V c n hn).2) ∗ restBut0 c) ∗ (∃ r, prngReg c r)) := rfl

theorem PhiS0_pos (c : Dev nD) (n : ℕ) (h : n ≤ cfg0.N) (hz : n ≠ 0) :
    PhiS0 V c n h = iprop((owns (c : Thread nD τ) scM0_0 fullShare ((outsAt0 V c (n - 1) (by omega)).2) ∗ restBut0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem Phi_any0 (c : Dev nD) (t : Fin (cfg0.N + 1)) :
    (dat0 V c).Φ t ⊢ iprop(((∃ d, owns (c : Thread nD τ) scM0_0 fullShare d) ∗ restBut0 c) ∗ (∃ r, prngReg c r)) := by
  rw [show (dat0 V c).Φ t = PhiS0 V c t.val (Nat.le_of_lt_succ t.isLt) from rfl]
  by_cases ht : t.val = 0
  · rw [PhiS0_zero V c _ _ ht]; exact Entails.of_eq (PhiA0_eq c)
  rw [PhiS0_pos V c _ _ ht]
  iintro ⟨⟨HS0, HR⟩, Hg⟩
  isplitl [HS0 HR]
  · isplitl [HS0]
    · iexists _; iexact HS0
    iexact HR
  iexact Hg

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
-- The body at any grid point takes the invariant before the point to the invariant after it.
theorem sound_body0 (c : Dev nD) (t : Fin cfg0.N) :
    bodyPre0 V c t ⊢ wp frame (wpE (defs₀ (F := F)) Variants.none c none) Set.univ (bodyPt0 t) (fun _ => bodyPost0 V c t) := by
  unfold bodyPre0 bodyPost0 bodyPt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 59829 := lt_of_lt_of_eq t.isLt (show cfg0.N = 59829 from N_0)
  by_cases h0 : t.val % 49 = 0
  · by_cases h1 : t.val % 49 = 48
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold atA0 sout0_A_0; (try dsimp only)
      refine (sep_mono_left (Phi_any0 V c t.castSucc)).trans ?_
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 49 = 48
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold atC0 out0_C_3 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover0_C_3 c _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold atB0 sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c :=
  (Phi_any0 V c _).trans (Entails.of_eq (PhiA0_eq c).symm)

theorem acc0_reset (c : Dev nD) (t : Fin cfg0.N) (h : t.val % 49 = 0) :
    (outsAt0 V c t.val t.isLt).2 = k0_pay2 (grid0.coords t) (iblk0 V c 1 t) (iblk0 V c 2 t) (iblk0 V c 0 t) k0_pay1 := by
  have h1 : ¬t.val % 49 = 48 := by omega
  rw [outsAt0_A V c t h h1]
  unfold atA0
  dsimp only
  rw [sout0_A_eq]

theorem acc0_step (c : Dev nD) (t : Fin cfg0.N) (h : t.val % 49 ≠ 0) :
    (outsAt0 V c t.val t.isLt).2 = k0_pay2 (grid0.coords t) (iblk0 V c 1 t) (iblk0 V c 2 t) (iblk0 V c 0 t)
      (outsAt0 V c (t.val - 1) (Nat.lt_of_le_of_lt (Nat.sub_le _ _) t.isLt)).2 := by
  by_cases h1 : t.val % 49 = 48
  · rw [outsAt0_C V c t h h1]
    unfold atC0
    dsimp only
    rw [sout0_C_eq]
  · rw [outsAt0_B V c t h h1]
    unfold atB0
    dsimp only
    rw [sout0_B_eq]

theorem out0_flush (c : Dev nD) (t : Fin cfg0.N) (h : t.val % 49 = 48) :
    (outsAt0 V c t.val t.isLt).1 = k0_pay3 (outsAt0 V c t.val t.isLt).2 := by
  have h0 : ¬t.val % 49 = 0 := by omega
  rw [outsAt0_C V c t h0 h]
  unfold atC0
  dsimp only
  rw [out0_C_eq, sout0_C_eq]

end Region

end Cert.KernelIdeal.Reg

end
-- ==== Proof.KI.S1.lean ====
import proofs.«430617_j5463198400657_1_alg».proof.Proof.Gen.KernelIdeal.Launch
import proofs.«430617_j5463198400657_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem coord1_1 (t : Fin cfg1.N) : ((grid1.coords t) 1).val = t.val % 1221 := by
  show t.val / grid1.stride 1 % grid1.bound 1 = t.val % 1221
  rw [show grid1.stride 1 = 1 from by decide, show grid1.bound 1 = 1221 from rfl, Nat.div_one]

theorem cond1_0_edge : ∀ j : Fin 1221,
    (Scalar.cmpi .ne (Scalar.extui (Scalar.cmpi .eq (BitVec.ofNat 32 j.val) 0#32)) 0#32) = 1#1 ↔ j.val = 0 := by
  decide +kernel

theorem cond1_1_edge : ∀ j : Fin 1221,
    (Scalar.cmpi .ne (Scalar.extui (Scalar.cmpi .eq (BitVec.ofNat 32 j.val) 1220#32)) 0#32) = 1#1 ↔ j.val = 1220 := by
  decide +kernel

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 1221 = 0 := fun t => by
  unfold cond1_0; rw [coord1_1 t]
  exact cond1_0_edge ⟨t.val % 1221, Nat.mod_lt _ (by decide)⟩

abbrev cond1_1 (i : grid1.Coords) : Prop := k1_cond2 i = 1#1

theorem hcond1_1 : ∀ t : Fin cfg1.N, cond1_1 (grid1.coords t) ↔ t.val % 1221 = 1220 := fun t => by
  unfold cond1_1 k1_cond2; dsimp only; rw [coord1_1 t]
  exact cond1_1_edge ⟨t.val % 1221, Nat.mod_lt _ (by decide)⟩

-- The body run in each of the three cases a grid point can be in: the first, an inner, or the last edge block of its node block.
section Body
variable (c : Dev nD) (i : grid1.Coords) (arg2 : Memref sig .tc .vmem S2048x32 .bf16) (harg2 : arg2.IsWhole) (arg3 : Memref sig .tc .vmem S1x2048 .i32) (harg3 : arg3.IsWhole) (arg4 : Memref sig .tc .vmem S2048x32 .f32) (harg4 : arg4.IsWhole) (arg5 : Memref sig .tc .vmem S2048x32 .f32) (harg5 : arg5.IsWhole)

set_option maxHeartbeats 1000000 in
noncomputable def kernelRun1_A (hc0 : cond1_0 i) (hc1 : ¬cond1_1 i)
    (x0 : Vec F S2048x32 .bf16) (x1 : Vec F S1x2048 .i32) :
    Σ' (L2 : List (View.Piece (Elt F) S2048x32 .f32)), { LS0 : List (View.Piece (Elt F) S2048x32 .f32) //
      ∀ (xi2 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def kernelRun1_B (hc0 : ¬cond1_0 i) (hc1 : ¬cond1_1 i)
    (x0 : Vec F S2048x32 .bf16) (x1 : Vec F S1x2048 .i32) (xs0 : Vec F S2048x32 .f32) :
    Σ' (L2 : List (View.Piece (Elt F) S2048x32 .f32)), { LS0 : List (View.Piece (Elt F) S2048x32 .f32) //
      ∀ (xi2 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
noncomputable def kernelRun1_C (hc0 : ¬cond1_0 i) (hc1 : cond1_1 i)
    (x0 : Vec F S2048x32 .bf16) (x1 : Vec F S1x2048 .i32) (xs0 : Vec F S2048x32 .f32) :
    Σ' (L2 : List (View.Piece (Elt F) S2048x32 .f32)), { LS0 : List (View.Piece (Elt F) S2048x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

def out1_A_2 (hc0 : cond1_0 i) (hc1 : ¬cond1_1 i)
    (x0 : Vec F S2048x32 .bf16) (x1 : Vec F S1x2048 .i32) : Vec F S2048x32 .f32 :=
  arg5.view.read (Elt F) (arg5.view.writes (Elt F) arg5.view.junk (kernelRun1_A c i arg2 harg2 arg3 harg3 arg4 harg4 arg5 harg5 hc0 hc1 x0 x1).1)

theorem scover1_A_0 (hc0 : cond1_0 i) (hc1 : ¬cond1_1 i)
    (x0 : Vec F S2048x32 .bf16) (x1 : Vec F S1x2048 .i32) (y : S2048x32.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x32.size (by sl_kernel_rfl) y

def sout1_A_0 (hc0 : cond1_0 i) (hc1 : ¬cond1_1 i)
    (x0 : Vec F S2048x32 .bf16) (x1 : Vec F S1x2048 .i32) : Vec F S2048x32 .f32 :=
  arg5.view.read (Elt F) (arg5.view.writes (Elt F) arg5.view.junk (kernelRun1_A c i arg2 harg2 arg3 harg3 arg4 harg4 arg5 harg5 hc0 hc1 x0 x1).2.1)

def out1_B_2 (hc0 : ¬cond1_0 i) (hc1 : ¬cond1_1 i)
    (x0 : Vec F S2048x32 .bf16) (x1 : Vec F S1x2048 .i32) (xs0 : Vec F S2048x32 .f32) : Vec F S2048x32 .f32 :=
  arg5.view.read (Elt F) (arg5.view.writes (Elt F) arg5.view.junk (kernelRun1_B c i arg2 harg2 arg3 harg3 arg4 harg4 arg5 harg5 hc0 hc1 x0 x1 xs0).1)

theorem scover1_B_0 (hc0 : ¬cond1_0 i) (hc1 : ¬cond1_1 i)
    (x0 : Vec F S2048x32 .bf16) (x1 : Vec F S1x2048 .i32) (xs0 : Vec F S2048x32 .f32) (y : S2048x32.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x32.size (by sl_kernel_rfl) y

def sout1_B_0 (hc0 : ¬cond1_0 i) (hc1 : ¬cond1_1 i)
    (x0 : Vec F S2048x32 .bf16) (x1 : Vec F S1x2048 .i32) (xs0 : Vec F S2048x32 .f32) : Vec F S2048x32 .f32 :=
  arg5.view.read (Elt F) (arg5.view.writes (Elt F) arg5.view.junk (kernelRun1_B c i arg2 harg2 arg3 harg3 arg4 harg4 arg5 harg5 hc0 hc1 x0 x1 xs0).2.1)

theorem cover1_C_2 (hc0 : ¬cond1_0 i) (hc1 : cond1_1 i)
    (x0 : Vec F S2048x32 .bf16) (x1 : Vec F S1x2048 .i32) (xs0 : Vec F S2048x32 .f32) (y : S2048x32.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x32.size (by sl_kernel_rfl) y

def out1_C_2 (hc0 : ¬cond1_0 i) (hc1 : cond1_1 i)
    (x0 : Vec F S2048x32 .bf16) (x1 : Vec F S1x2048 .i32) (xs0 : Vec F S2048x32 .f32) : Vec F S2048x32 .f32 :=
  arg5.view.read (Elt F) (arg5.view.writes (Elt F) arg5.view.junk (kernelRun1_C c i arg2 harg2 arg3 harg3 arg4 harg4 arg5 harg5 hc0 hc1 x0 x1 xs0).1)

theorem scover1_C_0 (hc0 : ¬cond1_0 i) (hc1 : cond1_1 i)
    (x0 : Vec F S2048x32 .bf16) (x1 : Vec F S1x2048 .i32) (xs0 : Vec F S2048x32 .f32) (y : S2048x32.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x32.size (by sl_kernel_rfl) y

def sout1_C_0 (hc0 : ¬cond1_0 i) (hc1 : cond1_1 i)
    (x0 : Vec F S2048x32 .bf16) (x1 : Vec F S1x2048 .i32) (xs0 : Vec F S2048x32 .f32) : Vec F S2048x32 .f32 :=
  arg5.view.read (Elt F) (arg5.view.writes (Elt F) arg5.view.junk (kernelRun1_C c i arg2 harg2 arg3 harg3 arg4 harg4 arg5 harg5 hc0 hc1 x0 x1 xs0).2.1)

theorem hz1 : (![0, 0] : Fin 2 → Nat) = fun _ => 0 :=
  funext fun a => match a with | ⟨0, _⟩ => rfl | ⟨1, _⟩ => rfl

theorem sout1_A_eq (hc0 : cond1_0 i) (hc1 : ¬cond1_1 i)
    (x0 : Vec F S2048x32 .bf16) (x1 : Vec F S1x2048 .i32) :
    sout1_A_0 c i arg2 harg2 arg3 harg3 arg4 harg4 arg5 harg5 hc0 hc1 x0 x1 = k1_pay2 i x1 x0 k1_pay1 := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S2048x32) hz1, View.readCov_unit_zero (S := S2048x32) _ hz1]
  simp only [View.readAt_eq_ld, harg2.read_unread, harg3.read_unread, harg5.read_unread, View.ld_unit_zero (S := S2048x32) hz1, View.ld_unit_zero (S := S1x2048) hz1]

theorem sout1_B_eq (hc0 : ¬cond1_0 i) (hc1 : ¬cond1_1 i)
    (x0 : Vec F S2048x32 .bf16) (x1 : Vec F S1x2048 .i32) (xs0 : Vec F S2048x32 .f32) :
    sout1_B_0 c i arg2 harg2 arg3 harg3 arg4 harg4 arg5 harg5 hc0 hc1 x0 x1 xs0 = k1_pay2 i x1 x0 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_words
  rw [View.canon_unit_zero (S := S2048x32) hz1]
  simp only [View.readAt_eq_ld, harg2.read_unread, harg3.read_unread, harg5.read_unread, View.ld_unit_zero (S := S2048x32) hz1, View.ld_unit_zero (S := S1x2048) hz1]

theorem sout1_C_eq (hc0 : ¬cond1_0 i) (hc1 : cond1_1 i)
    (x0 : Vec F S2048x32 .bf16) (x1 : Vec F S1x2048 .i32) (xs0 : Vec F S2048x32 .f32) :
    sout1_C_0 c i arg2 harg2 arg3 harg3 arg4 harg4 arg5 harg5 hc0 hc1 x0 x1 xs0 = k1_pay2 i x1 x0 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero (S := S2048x32) hz1]
  simp only [View.readAt_eq_ld, harg2.read_unread, harg3.read_unread, harg5.read_unread, View.ld_unit_zero (S := S2048x32) hz1, View.ld_unit_zero (S := S1x2048) hz1]

theorem out1_C_eq (hc0 : ¬cond1_0 i) (hc1 : cond1_1 i)
    (x0 : Vec F S2048x32 .bf16) (x1 : Vec F S1x2048 .i32) (xs0 : Vec F S2048x32 .f32) :
    out1_C_2 c i arg2 harg2 arg3 harg3 arg4 harg4 arg5 harg5 hc0 hc1 x0 x1 xs0 = k1_pay2 i x1 x0 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero (S := S2048x32) hz1, View.readCov_unit_zero (S := S2048x32) _ hz1]
  simp only [View.readAt_eq_ld, harg2.read_unread, harg3.read_unread, harg5.read_unread, View.ld_unit_zero (S := S2048x32) hz1, View.ld_unit_zero (S := S1x2048) hz1]

end Body

abbrev scM1_0 : Memref sig .tc .vmem S2048x32 .f32 := Memref.whole cc1_scratch0

theorem index1_2 (t : Fin cfg1.N) : (cfg1.win 2).index t = ![t.val / 1221, 0] := by
  have ht : t.val < 59829 := lt_of_lt_of_eq t.isLt N_1
  have h0 : ((grid1.coords t) 0).val = t.val / 1221 := by
    show t.val / grid1.stride 0 % grid1.bound 0 = t.val / 1221
    rw [show grid1.stride 0 = 1221 from by decide, show grid1.bound 0 = 49 from rfl]
    exact Nat.mod_eq_of_lt (by omega)
  show cc1_transform_2 (grid1.coords t) = _
  unfold cc1_transform_2; dsimp only
  rw [h0, BitVec.toNat_ofNat, Nat.mod_eq_of_lt (by omega)]
  rfl

theorem flushAt1_2 (t : Fin cfg1.N) : (cfg1.win 2).flush t = true ↔ t.val % 1221 = 1220 := by
  have hN : grid1.N = 59829 := N_1
  have hN' : cfg1.grid.N = 59829 := N_1
  have hN'' : cfg1.N = 59829 := N_1
  have ht : t.val < 59829 := lt_of_lt_of_eq t.isLt hN
  unfold Window.flush
  rw [show (cfg1.win 2).isOut = true from rfl, Bool.true_and, Bool.or_eq_true, decide_eq_true_eq, decide_eq_true_eq]
  constructor
  · rintro (h | ⟨h, hne⟩)
    · omega
    · by_contra hc
      apply hne
      rw [index1_2, index1_2]
      show ![(t.val + 1) / 1221, 0] = ![t.val / 1221, 0]
      rw [show (t.val + 1) / 1221 = t.val / 1221 from by omega]
  · intro h
    by_cases hl : t.val + 1 = cfg1.grid.N
    · exact Or.inl hl
    · refine Or.inr ⟨by omega, fun he => ?_⟩
      rw [index1_2, index1_2] at he
      have h0 : (t.val + 1) / 1221 = t.val / 1221 := congrFun he 0
      omega

theorem liveAt1_0 (t : Fin cfg1.N) : cfg1.idle 0 (grid1.coords t) = false := rfl
theorem liveAt1_1 (t : Fin cfg1.N) : cfg1.idle 1 (grid1.coords t) = false := rfl

theorem idleAt1_2 (t : Fin cfg1.N) (h1 : ¬cond1_1 (grid1.coords t)) : cfg1.idle 2 (grid1.coords t) = true := by
  show (!(k1_cond2 (grid1.coords t) == 1#1)) = true
  rw [Bool.not_eq_true', beq_eq_false_iff_ne]; exact h1

theorem noFlush1_2 (t : Fin cfg1.N) (h1 : ¬cond1_1 (grid1.coords t)) : (cfg1.win 2).flush t = false :=
  Bool.eq_false_iff.mpr fun hf => h1 ((hcond1_1 t).mpr ((flushAt1_2 t).mp hf))

theorem liveAt1_2 (t : Fin cfg1.N) (h1 : cond1_1 (grid1.coords t)) : cfg1.idle 2 (grid1.coords t) = false := by
  show (!(k1_cond2 (grid1.coords t) == 1#1)) = false
  rw [Bool.not_eq_false', beq_iff_eq]; exact h1

abbrev ms1_0 (t : Fin cfg1.N) : Memref sig .tc .vmem S2048x32 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x32 .f32 := win1_2.stage (cfg1.slots t 2)
abbrev hs1_2 (t : Fin cfg1.N) : (ms1_2 t).IsWhole := hstage1_2 ((cfg1.slots t 2).cast nbuf1_2)

abbrev bodyPt1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(((∃ d, owns (c : Thread nD τ) scM1_0 fullShare d) ∗ restBut1 c) ∗ (∃ r, prngReg c r)) := by
  unfold Pipeline.ΦA; rw [scopedRest1_split]; simp only [scM1_0, owns_whole]; try rfl

section Region

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

def atA1 (c : Dev nD) (t : Fin cfg1.N) (h0 : t.val % 1221 = 0) (h1 : ¬t.val % 1221 = 1220) : Vec F S2048x32 .f32 × Vec F S2048x32 .f32 :=
  (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t),
   sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t))

def atB1 (c : Dev nD) (t : Fin cfg1.N) (h0 : ¬t.val % 1221 = 0) (h1 : ¬t.val % 1221 = 1220) (xs : Vec F S2048x32 .f32) : Vec F S2048x32 .f32 × Vec F S2048x32 .f32 :=
  (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) xs,
   sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) xs)

def atC1 (c : Dev nD) (t : Fin cfg1.N) (h0 : ¬t.val % 1221 = 0) (h1 : t.val % 1221 = 1220) (xs : Vec F S2048x32 .f32) : Vec F S2048x32 .f32 × Vec F S2048x32 .f32 :=
  (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs,
   sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs)

-- What the output block and the accumulator hold after point `n`, by recursion on `n`.
def outsAt1 (c : Dev nD) : (n : ℕ) → n < cfg1.N → Vec F S2048x32 .f32 × Vec F S2048x32 .f32
  | 0, hn => atA1 V c ⟨0, hn⟩ (Nat.zero_mod _) (fun h => by (try dsimp only at h); omega)
  | n + 1, hn =>
    if h0 : (n + 1) % 1221 = 0 then
      if h1 : (n + 1) % 1221 = 1220 then False.elim (by omega)
      else atA1 V c ⟨n + 1, hn⟩ h0 h1
    else
      if h1 : (n + 1) % 1221 = 1220 then atC1 V c ⟨n + 1, hn⟩ h0 h1 (outsAt1 c n (Nat.lt_of_succ_lt hn)).2
      else atB1 V c ⟨n + 1, hn⟩ h0 h1 (outsAt1 c n (Nat.lt_of_succ_lt hn)).2

theorem outsAt1_A (c : Dev nD) (t : Fin cfg1.N) (h0 : t.val % 1221 = 0) (h1 : ¬t.val % 1221 = 1220) :
    outsAt1 V c t.val t.isLt = atA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 1221 = 0) (h1 : ¬t.val % 1221 = 1220) :
    outsAt1 V c t.val t.isLt = atB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 1221 = 0) (h1 : t.val % 1221 = 1220) :
    outsAt1 V c t.val t.isLt = atC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop((owns (c : Thread nD τ) scM1_0 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop((owns (c : Thread nD τ) scM1_0 fullShare ((outsAt1 V c (n - 1) (by omega)).2) ∗ restBut1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi_any1 (c : Dev nD) (t : Fin (cfg1.N + 1)) :
    (dat1 V c).Φ t ⊢ iprop(((∃ d, owns (c : Thread nD τ) scM1_0 fullShare d) ∗ restBut1 c) ∗ (∃ r, prngReg c r)) := by
  rw [show (dat1 V c).Φ t = PhiS1 V c t.val (Nat.le_of_lt_succ t.isLt) from rfl]
  by_cases ht : t.val = 0
  · rw [PhiS1_zero V c _ _ ht]; exact Entails.of_eq (PhiA1_eq c)
  rw [PhiS1_pos V c _ _ ht]
  iintro ⟨⟨HS0, HR⟩, Hg⟩
  isplitl [HS0 HR]
  · isplitl [HS0]
    · iexists _; iexact HS0
    iexact HR
  iexact Hg

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
-- The body at any grid point takes the invariant before the point to the invariant after it.
theorem sound_body1 (c : Dev nD) (t : Fin cfg1.N) :
    bodyPre1 V c t ⊢ wp frame (wpE (defs₀ (F := F)) Variants.none c none) Set.univ (bodyPt1 t) (fun _ => bodyPost1 V c t) := by
  unfold bodyPre1 bodyPost1 bodyPt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 59829 := lt_of_lt_of_eq t.isLt (show cfg1.N = 59829 from N_1)
  by_cases h0 : t.val % 1221 = 0
  · by_cases h1 : t.val % 1221 = 1220
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold atA1 sout1_A_0; (try dsimp only)
      refine (sep_mono_left (Phi_any1 V c t.castSucc)).trans ?_
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun hz => h0 (by rw [hz])
    by_cases h1 : t.val % 1221 = 1220
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold atC1 out1_C_2 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold atB1 sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _)
          iexact HR
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c :=
  (Phi_any1 V c _).trans (Entails.of_eq (PhiA1_eq c).symm)

theorem acc1_reset (c : Dev nD) (t : Fin cfg1.N) (h : t.val % 1221 = 0) :
    (outsAt1 V c t.val t.isLt).2 = k1_pay2 (grid1.coords t) (iblk1 V c 1 t) (iblk1 V c 0 t) k1_pay1 := by
  have h1 : ¬t.val % 1221 = 1220 := by omega
  rw [outsAt1_A V c t h h1]
  unfold atA1
  dsimp only
  rw [sout1_A_eq]

theorem acc1_step (c : Dev nD) (t : Fin cfg1.N) (h : t.val % 1221 ≠ 0) :
    (outsAt1 V c t.val t.isLt).2 = k1_pay2 (grid1.coords t) (iblk1 V c 1 t) (iblk1 V c 0 t)
      (outsAt1 V c (t.val - 1) (Nat.lt_of_le_of_lt (Nat.sub_le _ _) t.isLt)).2 := by
  by_cases h1 : t.val % 1221 = 1220
  · rw [outsAt1_C V c t h h1]
    unfold atC1
    dsimp only
    rw [sout1_C_eq]
  · rw [outsAt1_B V c t h h1]
    unfold atB1
    dsimp only
    rw [sout1_B_eq]

theorem out1_flush (c : Dev nD) (t : Fin cfg1.N) (h : t.val % 1221 = 1220) :
    (outsAt1 V c t.val t.isLt).1 = (outsAt1 V c t.val t.isLt).2 := by
  have h0 : ¬t.val % 1221 = 0 := by omega
  rw [outsAt1_C V c t h0 h]
  unfold atC1
  dsimp only
  rw [out1_C_eq, sout1_C_eq]

end Region

end Cert.KernelIdeal.Reg

end
-- ==== Proof.KI.G2b.lean ====
import proofs.«430617_j5463198400657_1_alg».proof.Proof.KI.G0b

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The second round's call runs the first round's kernel function, so the three body runs are the first round's.
abbrev scM2_0 : Memref sig .tc .vmem S2048x32 .f32 := Memref.whole cc2_scratch0

theorem index2_3 (t : Fin cfg2.N) : (cfg2.win 3).index t = ![t.val / 49, 0] := by
  have ht : t.val < 59829 := lt_of_lt_of_eq t.isLt N_2
  have h0 : ((grid2.coords t) 0).val = t.val / 49 := by
    show t.val / grid2.stride 0 % grid2.bound 0 = t.val / 49
    rw [show grid2.stride 0 = 49 from by decide, show grid2.bound 0 = 1221 from rfl]
    exact Nat.mod_eq_of_lt (by omega)
  show cc2_transform_3 (grid2.coords t) = _
  unfold cc2_transform_3; dsimp only
  rw [h0, BitVec.toNat_ofNat, Nat.mod_eq_of_lt (by omega)]
  rfl

theorem flushAt2_3 (t : Fin cfg2.N) : (cfg2.win 3).flush t = true ↔ t.val % 49 = 48 := by
  have hN : grid2.N = 59829 := N_2
  have hN' : cfg2.grid.N = 59829 := N_2
  have hN'' : cfg2.N = 59829 := N_2
  have ht : t.val < 59829 := lt_of_lt_of_eq t.isLt hN
  unfold Window.flush
  rw [show (cfg2.win 3).isOut = true from rfl, Bool.true_and, Bool.or_eq_true, decide_eq_true_eq, decide_eq_true_eq]
  constructor
  · rintro (h | ⟨h, hne⟩)
    · omega
    · by_contra hc
      apply hne
      rw [index2_3, index2_3]
      show ![(t.val + 1) / 49, 0] = ![t.val / 49, 0]
      rw [show (t.val + 1) / 49 = t.val / 49 from by omega]
  · intro h
    by_cases hl : t.val + 1 = cfg2.grid.N
    · exact Or.inl hl
    · refine Or.inr ⟨by omega, fun he => ?_⟩
      rw [index2_3, index2_3] at he
      have h0 : (t.val + 1) / 49 = t.val / 49 := congrFun he 0
      omega

theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl

theorem idleAt2_3 (t : Fin cfg2.N) (h1 : ¬cond0_1 (grid2.coords t)) : cfg2.idle 3 (grid2.coords t) = true := by
  show (!(k2_cond2 (grid2.coords t) == 1#1)) = true
  rw [Bool.not_eq_true', beq_eq_false_iff_ne]; exact h1

theorem noFlush2_3 (t : Fin cfg2.N) (h1 : ¬cond0_1 (grid2.coords t)) : (cfg2.win 3).flush t = false :=
  Bool.eq_false_iff.mpr fun hf => h1 ((hcond0_1 t).mpr ((flushAt2_3 t).mp hf))

theorem liveAt2_3 (t : Fin cfg2.N) (h1 : cond0_1 (grid2.coords t)) : cfg2.idle 3 (grid2.coords t) = false := by
  show (!(k2_cond2 (grid2.coords t) == 1#1)) = false
  rw [Bool.not_eq_false', beq_iff_eq]; exact h1

abbrev ms2_0 (t : Fin cfg2.N) : Memref sig .tc .vmem S2048x32 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x32 .bf16 := win2_3.stage (cfg2.slots t 3)
abbrev hs2_3 (t : Fin cfg2.N) : (ms2_3 t).IsWhole := hstage2_3 ((cfg2.slots t 3).cast nbuf2_3)

abbrev bodyPt2 (t : Fin cfg2.N) : Prog (TpuEff nD τ sig (Elt F) Λ₀ .tc) PUnit :=
  cc0__gather_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

abbrev restBut2 (c : Dev nD) : sProp 𝕄 :=
  Pipeline.scopedRestBut (Ix := Unit) (Name := ℕ) (U := UR sig nD τ) (Lvl := ℕ) (Val := Elt F) spec2 c [cc2_scratch0]

theorem restSplit2 (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ restBut2 c) :=
  Pipeline.scopedRest_split_of_list spec2 c [cc2_scratch0] (by decide) (by decide)

theorem PhiA2_eq (c : Dev nD) :
    (Pipeline.ΦA spec2 c : sProp 𝕄)
      = iprop(((∃ d, owns (c : Thread nD τ) scM2_0 fullShare d) ∗ restBut2 c) ∗ (∃ r, prngReg c r)) := by
  unfold Pipeline.ΦA; rw [restSplit2]; simp only [scM2_0, owns_whole]; try rfl

section Region

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

def atA2 (c : Dev nD) (t : Fin cfg2.N) (h0 : t.val % 49 = 0) (h1 : ¬t.val % 49 = 48) : Vec F S2048x32 .bf16 × Vec F S2048x32 .f32 :=
  (out0_A_3 c (grid2.coords t) (ms2_0 t) (hs2_0 t) (ms2_1 t) (hs2_1 t) (ms2_2 t) (hs2_2 t) (ms2_3 t) (hs2_3 t) scM2_0 (Memref.isWhole_whole _) ((hcond0_0 t).mpr h0) (fun h => h1 ((hcond0_1 t).mp h)) (iblk2 V c 0 t) (iblk2 V c 1 t) (iblk2 V c 2 t),
   sout0_A_0 c (grid2.coords t) (ms2_0 t) (hs2_0 t) (ms2_1 t) (hs2_1 t) (ms2_2 t) (hs2_2 t) (ms2_3 t) (hs2_3 t) scM2_0 (Memref.isWhole_whole _) ((hcond0_0 t).mpr h0) (fun h => h1 ((hcond0_1 t).mp h)) (iblk2 V c 0 t) (iblk2 V c 1 t) (iblk2 V c 2 t))

def atB2 (c : Dev nD) (t : Fin cfg2.N) (h0 : ¬t.val % 49 = 0) (h1 : ¬t.val % 49 = 48) (xs : Vec F S2048x32 .f32) : Vec F S2048x32 .bf16 × Vec F S2048x32 .f32 :=
  (out0_B_3 c (grid2.coords t) (ms2_0 t) (hs2_0 t) (ms2_1 t) (hs2_1 t) (ms2_2 t) (hs2_2 t) (ms2_3 t) (hs2_3 t) scM2_0 (Memref.isWhole_whole _) (fun h => h0 ((hcond0_0 t).mp h)) (fun h => h1 ((hcond0_1 t).mp h)) (iblk2 V c 0 t) (iblk2 V c 1 t) (iblk2 V c 2 t) xs,
   sout0_B_0 c (grid2.coords t) (ms2_0 t) (hs2_0 t) (ms2_1 t) (hs2_1 t) (ms2_2 t) (hs2_2 t) (ms2_3 t) (hs2_3 t) scM2_0 (Memref.isWhole_whole _) (fun h => h0 ((hcond0_0 t).mp h)) (fun h => h1 ((hcond0_1 t).mp h)) (iblk2 V c 0 t) (iblk2 V c 1 t) (iblk2 V c 2 t) xs)

def atC2 (c : Dev nD) (t : Fin cfg2.N) (h0 : ¬t.val % 49 = 0) (h1 : t.val % 49 = 48) (xs : Vec F S2048x32 .f32) : Vec F S2048x32 .bf16 × Vec F S2048x32 .f32 :=
  (out0_C_3 c (grid2.coords t) (ms2_0 t) (hs2_0 t) (ms2_1 t) (hs2_1 t) (ms2_2 t) (hs2_2 t) (ms2_3 t) (hs2_3 t) scM2_0 (Memref.isWhole_whole _) (fun h => h0 ((hcond0_0 t).mp h)) ((hcond0_1 t).mpr h1) (iblk2 V c 0 t) (iblk2 V c 1 t) (iblk2 V c 2 t) xs,
   sout0_C_0 c (grid2.coords t) (ms2_0 t) (hs2_0 t) (ms2_1 t) (hs2_1 t) (ms2_2 t) (hs2_2 t) (ms2_3 t) (hs2_3 t) scM2_0 (Memref.isWhole_whole _) (fun h => h0 ((hcond0_0 t).mp h)) ((hcond0_1 t).mpr h1) (iblk2 V c 0 t) (iblk2 V c 1 t) (iblk2 V c 2 t) xs)

def outsAt2 (c : Dev nD) : (n : ℕ) → n < cfg2.N → Vec F S2048x32 .bf16 × Vec F S2048x32 .f32
  | 0, hn => atA2 V c ⟨0, hn⟩ (Nat.zero_mod _) (fun h => by (try dsimp only at h); omega)
  | n + 1, hn =>
    if h0 : (n + 1) % 49 = 0 then
      if h1 : (n + 1) % 49 = 48 then False.elim (by omega)
      else atA2 V c ⟨n + 1, hn⟩ h0 h1
    else
      if h1 : (n + 1) % 49 = 48 then atC2 V c ⟨n + 1, hn⟩ h0 h1 (outsAt2 c n (Nat.lt_of_succ_lt hn)).2
      else atB2 V c ⟨n + 1, hn⟩ h0 h1 (outsAt2 c n (Nat.lt_of_succ_lt hn)).2

theorem outsAt2_A (c : Dev nD) (t : Fin cfg2.N) (h0 : t.val % 49 = 0) (h1 : ¬t.val % 49 = 48) :
    outsAt2 V c t.val t.isLt = atA2 V c t h0 h1 := by
  obtain ⟨n, hn⟩ := t
  cases n with
  | zero => exact rfl
  | succ n => exact (dif_pos h0).trans ((dif_neg h1).trans rfl)

theorem outsAt2_B (c : Dev nD) (t : Fin cfg2.N) (h0 : ¬t.val % 49 = 0) (h1 : ¬t.val % 49 = 48) :
    outsAt2 V c t.val t.isLt = atB2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 49 = 0) (h1 : t.val % 49 = 48) :
    outsAt2 V c t.val t.isLt = atC2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS2 (c : Dev nD) : (n : ℕ) → n ≤ cfg2.N → sProp 𝕄
  | 0, _ => Pipeline.ΦA spec2 c
  | n + 1, hn => iprop((owns (c : Thread nD τ) scM2_0 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2_0 fullShare ((outsAt2 V c n hn).2) ∗ restBut2 c) ∗ (∃ r, prngReg c r)) := rfl

theorem PhiS2_pos (c : Dev nD) (n : ℕ) (h : n ≤ cfg2.N) (hz : n ≠ 0) :
    PhiS2 V c n h = iprop((owns (c : Thread nD τ) scM2_0 fullShare ((outsAt2 V c (n - 1) (by omega)).2) ∗ restBut2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := by
  dsimp only [dat2]

theorem owed_eq2 (c : Dev nD) (t : Fin (cfg2.N + 1)) : (dat2 V c).owed t = 0 := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem Phi_any2 (c : Dev nD) (t : Fin (cfg2.N + 1)) :
    (dat2 V c).Φ t ⊢ iprop(((∃ d, owns (c : Thread nD τ) scM2_0 fullShare d) ∗ restBut2 c) ∗ (∃ r, prngReg c r)) := by
  rw [show (dat2 V c).Φ t = PhiS2 V c t.val (Nat.le_of_lt_succ t.isLt) from rfl]
  by_cases ht : t.val = 0
  · rw [PhiS2_zero V c _ _ ht]; exact Entails.of_eq (PhiA2_eq c)
  rw [PhiS2_pos V c _ _ ht]
  iintro ⟨⟨HS0, HR⟩, Hg⟩
  isplitl [HS0 HR]
  · isplitl [HS0]
    · iexists _; iexact HS0
    iexact HR
  iexact Hg

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyPt2 t) (fun _ => bodyPost2 V c t) := by
  unfold bodyPre2 bodyPost2 bodyPt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 59829 := lt_of_lt_of_eq t.isLt (show cfg2.N = 59829 from N_2)
  by_cases h0 : t.val % 49 = 0
  · by_cases h1 : t.val % 49 = 48
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond0_1 t).mp h))) (noFlush2_3 t (fun h => h1 ((hcond0_1 t).mp h)))]
      rw [outsAt2_A V c t h0 h1]
      unfold atA2 sout0_A_0; (try dsimp only)
      refine (sep_mono_left (Phi_any2 V c t.castSucc)).trans ?_
      iintro ⟨⟨⟨HS0, HR⟩, Hg⟩, Ho, ⟨%d0, H0⟩, ⟨%d1, H1⟩, ⟨%d2, H2⟩, ⟨%d3, H3⟩⟩
      iapply ((kernelRun0_A c (grid2.coords t) _ _ _ _ _ _ _ _ _ _ ((hcond0_0 t).mpr h0) (fun h => h1 ((hcond0_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 49 = 48
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t ((hcond0_1 t).mpr h1)], after2_3]
      rw [outsAt2_C V c t h0 h1]
      unfold atC2 out0_C_3 sout0_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid2.coords t) _ _ _ _ _ _ _ _ _ _ (fun h => h0 ((hcond0_0 t).mp h)) ((hcond0_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (cover0_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond0_1 t).mp h))) (noFlush2_3 t (fun h => h1 ((hcond0_1 t).mp h)))]
      rw [outsAt2_B V c t h0 h1]
      unfold atB2 sout0_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid2.coords t) _ _ _ _ _ _ _ _ _ _ (fun h => h0 ((hcond0_0 t).mp h)) (fun h => h1 ((hcond0_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c :=
  (Phi_any2 V c _).trans (Entails.of_eq (PhiA2_eq c).symm)

theorem acc2_reset (c : Dev nD) (t : Fin cfg2.N) (h : t.val % 49 = 0) :
    (outsAt2 V c t.val t.isLt).2 = k0_pay2 (grid2.coords t) (iblk2 V c 1 t) (iblk2 V c 2 t) (iblk2 V c 0 t) k0_pay1 := by
  have h1 : ¬t.val % 49 = 48 := by omega
  rw [outsAt2_A V c t h h1]
  unfold atA2
  dsimp only
  rw [sout0_A_eq]

theorem acc2_step (c : Dev nD) (t : Fin cfg2.N) (h : t.val % 49 ≠ 0) :
    (outsAt2 V c t.val t.isLt).2 = k0_pay2 (grid2.coords t) (iblk2 V c 1 t) (iblk2 V c 2 t) (iblk2 V c 0 t)
      (outsAt2 V c (t.val - 1) (Nat.lt_of_le_of_lt (Nat.sub_le _ _) t.isLt)).2 := by
  by_cases h1 : t.val % 49 = 48
  · rw [outsAt2_C V c t h h1]
    unfold atC2
    dsimp only
    rw [sout0_C_eq]
  · rw [outsAt2_B V c t h h1]
    unfold atB2
    dsimp only
    rw [sout0_B_eq]

theorem out2_flush (c : Dev nD) (t : Fin cfg2.N) (h : t.val % 49 = 48) :
    (outsAt2 V c t.val t.isLt).1 = k0_pay3 (outsAt2 V c t.val t.isLt).2 := by
  have h0 : ¬t.val % 49 = 0 := by omega
  rw [outsAt2_C V c t h0 h]
  unfold atC2
  dsimp only
  rw [out0_C_eq, sout0_C_eq]

end Region

end Cert.KernelIdeal.Reg

end
-- ==== Proof.KI.S3.lean ====
import proofs.«430617_j5463198400657_1_alg».proof.Proof.KI.S1

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The second round's call runs the first round's kernel function, so the three body runs are the first round's.
abbrev scM3_0 : Memref sig .tc .vmem S2048x32 .f32 := Memref.whole cc3_scratch0

theorem index3_2 (t : Fin cfg3.N) : (cfg3.win 2).index t = ![t.val / 1221, 0] := by
  have ht : t.val < 59829 := lt_of_lt_of_eq t.isLt N_3
  have h0 : ((grid3.coords t) 0).val = t.val / 1221 := by
    show t.val / grid3.stride 0 % grid3.bound 0 = t.val / 1221
    rw [show grid3.stride 0 = 1221 from by decide, show grid3.bound 0 = 49 from rfl]
    exact Nat.mod_eq_of_lt (by omega)
  show cc3_transform_2 (grid3.coords t) = _
  unfold cc3_transform_2; dsimp only
  rw [h0, BitVec.toNat_ofNat, Nat.mod_eq_of_lt (by omega)]
  rfl

theorem flushAt3_2 (t : Fin cfg3.N) : (cfg3.win 2).flush t = true ↔ t.val % 1221 = 1220 := by
  have hN : grid3.N = 59829 := N_3
  have hN' : cfg3.grid.N = 59829 := N_3
  have hN'' : cfg3.N = 59829 := N_3
  have ht : t.val < 59829 := lt_of_lt_of_eq t.isLt hN
  unfold Window.flush
  rw [show (cfg3.win 2).isOut = true from rfl, Bool.true_and, Bool.or_eq_true, decide_eq_true_eq, decide_eq_true_eq]
  constructor
  · rintro (h | ⟨h, hne⟩)
    · omega
    · by_contra hc
      apply hne
      rw [index3_2, index3_2]
      show ![(t.val + 1) / 1221, 0] = ![t.val / 1221, 0]
      rw [show (t.val + 1) / 1221 = t.val / 1221 from by omega]
  · intro h
    by_cases hl : t.val + 1 = cfg3.grid.N
    · exact Or.inl hl
    · refine Or.inr ⟨by omega, fun he => ?_⟩
      rw [index3_2, index3_2] at he
      have h0 : (t.val + 1) / 1221 = t.val / 1221 := congrFun he 0
      omega

theorem liveAt3_0 (t : Fin cfg3.N) : cfg3.idle 0 (grid3.coords t) = false := rfl
theorem liveAt3_1 (t : Fin cfg3.N) : cfg3.idle 1 (grid3.coords t) = false := rfl

theorem idleAt3_2 (t : Fin cfg3.N) (h1 : ¬cond1_1 (grid3.coords t)) : cfg3.idle 2 (grid3.coords t) = true := by
  show (!(k3_cond2 (grid3.coords t) == 1#1)) = true
  rw [Bool.not_eq_true', beq_eq_false_iff_ne]; exact h1

theorem noFlush3_2 (t : Fin cfg3.N) (h1 : ¬cond1_1 (grid3.coords t)) : (cfg3.win 2).flush t = false :=
  Bool.eq_false_iff.mpr fun hf => h1 ((hcond1_1 t).mpr ((flushAt3_2 t).mp hf))

theorem liveAt3_2 (t : Fin cfg3.N) (h1 : cond1_1 (grid3.coords t)) : cfg3.idle 2 (grid3.coords t) = false := by
  show (!(k3_cond2 (grid3.coords t) == 1#1)) = false
  rw [Bool.not_eq_false', beq_iff_eq]; exact h1

abbrev ms3_0 (t : Fin cfg3.N) : Memref sig .tc .vmem S2048x32 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x2048 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x32 .f32 := win3_2.stage (cfg3.slots t 2)
abbrev hs3_2 (t : Fin cfg3.N) : (ms3_2 t).IsWhole := hstage3_2 ((cfg3.slots t 2).cast nbuf3_2)

abbrev bodyPt3 (t : Fin cfg3.N) : Prog (TpuEff nD τ sig (Elt F) Λ₀ .tc) PUnit :=
  cc1__scatter_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (Memref.whole cc3_scratch0) (Memref.isWhole_whole _)

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(((∃ d, owns (c : Thread nD τ) scM3_0 fullShare d) ∗ restBut3 c) ∗ (∃ r, prngReg c r)) := by
  unfold Pipeline.ΦA; rw [scopedRest3_split]; simp only [scM3_0, owns_whole]; try rfl

section Region

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

def atA3 (c : Dev nD) (t : Fin cfg3.N) (h0 : t.val % 1221 = 0) (h1 : ¬t.val % 1221 = 1220) : Vec F S2048x32 .f32 × Vec F S2048x32 .f32 :=
  (out1_A_2 c (grid3.coords t) (ms3_0 t) (hs3_0 t) (ms3_1 t) (hs3_1 t) (ms3_2 t) (hs3_2 t) scM3_0 (Memref.isWhole_whole _) ((hcond1_0 t).mpr h0) (fun h => h1 ((hcond1_1 t).mp h)) (iblk3 V c 0 t) (iblk3 V c 1 t),
   sout1_A_0 c (grid3.coords t) (ms3_0 t) (hs3_0 t) (ms3_1 t) (hs3_1 t) (ms3_2 t) (hs3_2 t) scM3_0 (Memref.isWhole_whole _) ((hcond1_0 t).mpr h0) (fun h => h1 ((hcond1_1 t).mp h)) (iblk3 V c 0 t) (iblk3 V c 1 t))

def atB3 (c : Dev nD) (t : Fin cfg3.N) (h0 : ¬t.val % 1221 = 0) (h1 : ¬t.val % 1221 = 1220) (xs : Vec F S2048x32 .f32) : Vec F S2048x32 .f32 × Vec F S2048x32 .f32 :=
  (out1_B_2 c (grid3.coords t) (ms3_0 t) (hs3_0 t) (ms3_1 t) (hs3_1 t) (ms3_2 t) (hs3_2 t) scM3_0 (Memref.isWhole_whole _) (fun h => h0 ((hcond1_0 t).mp h)) (fun h => h1 ((hcond1_1 t).mp h)) (iblk3 V c 0 t) (iblk3 V c 1 t) xs,
   sout1_B_0 c (grid3.coords t) (ms3_0 t) (hs3_0 t) (ms3_1 t) (hs3_1 t) (ms3_2 t) (hs3_2 t) scM3_0 (Memref.isWhole_whole _) (fun h => h0 ((hcond1_0 t).mp h)) (fun h => h1 ((hcond1_1 t).mp h)) (iblk3 V c 0 t) (iblk3 V c 1 t) xs)

def atC3 (c : Dev nD) (t : Fin cfg3.N) (h0 : ¬t.val % 1221 = 0) (h1 : t.val % 1221 = 1220) (xs : Vec F S2048x32 .f32) : Vec F S2048x32 .f32 × Vec F S2048x32 .f32 :=
  (out1_C_2 c (grid3.coords t) (ms3_0 t) (hs3_0 t) (ms3_1 t) (hs3_1 t) (ms3_2 t) (hs3_2 t) scM3_0 (Memref.isWhole_whole _) (fun h => h0 ((hcond1_0 t).mp h)) ((hcond1_1 t).mpr h1) (iblk3 V c 0 t) (iblk3 V c 1 t) xs,
   sout1_C_0 c (grid3.coords t) (ms3_0 t) (hs3_0 t) (ms3_1 t) (hs3_1 t) (ms3_2 t) (hs3_2 t) scM3_0 (Memref.isWhole_whole _) (fun h => h0 ((hcond1_0 t).mp h)) ((hcond1_1 t).mpr h1) (iblk3 V c 0 t) (iblk3 V c 1 t) xs)

def outsAt3 (c : Dev nD) : (n : ℕ) → n < cfg3.N → Vec F S2048x32 .f32 × Vec F S2048x32 .f32
  | 0, hn => atA3 V c ⟨0, hn⟩ (Nat.zero_mod _) (fun h => by (try dsimp only at h); omega)
  | n + 1, hn =>
    if h0 : (n + 1) % 1221 = 0 then
      if h1 : (n + 1) % 1221 = 1220 then False.elim (by omega)
      else atA3 V c ⟨n + 1, hn⟩ h0 h1
    else
      if h1 : (n + 1) % 1221 = 1220 then atC3 V c ⟨n + 1, hn⟩ h0 h1 (outsAt3 c n (Nat.lt_of_succ_lt hn)).2
      else atB3 V c ⟨n + 1, hn⟩ h0 h1 (outsAt3 c n (Nat.lt_of_succ_lt hn)).2

theorem outsAt3_A (c : Dev nD) (t : Fin cfg3.N) (h0 : t.val % 1221 = 0) (h1 : ¬t.val % 1221 = 1220) :
    outsAt3 V c t.val t.isLt = atA3 V c t h0 h1 := by
  obtain ⟨n, hn⟩ := t
  cases n with
  | zero => exact rfl
  | succ n => exact (dif_pos h0).trans ((dif_neg h1).trans rfl)

theorem outsAt3_B (c : Dev nD) (t : Fin cfg3.N) (h0 : ¬t.val % 1221 = 0) (h1 : ¬t.val % 1221 = 1220) :
    outsAt3 V c t.val t.isLt = atB3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 1221 = 0) (h1 : t.val % 1221 = 1220) :
    outsAt3 V c t.val t.isLt = atC3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS3 (c : Dev nD) : (n : ℕ) → n ≤ cfg3.N → sProp 𝕄
  | 0, _ => Pipeline.ΦA spec3 c
  | n + 1, hn => iprop((owns (c : Thread nD τ) scM3_0 fullShare ((outsAt3 V c n hn).2) ∗ restBut3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop((owns (c : Thread nD τ) scM3_0 fullShare ((outsAt3 V c n hn).2) ∗ restBut3 c) ∗ (∃ r, prngReg c r)) := rfl

theorem PhiS3_pos (c : Dev nD) (n : ℕ) (h : n ≤ cfg3.N) (hz : n ≠ 0) :
    PhiS3 V c n h = iprop((owns (c : Thread nD τ) scM3_0 fullShare ((outsAt3 V c (n - 1) (by omega)).2) ∗ restBut3 c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := by
  dsimp only [dat3]

theorem owed_eq3 (c : Dev nD) (t : Fin (cfg3.N + 1)) : (dat3 V c).owed t = 0 := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

theorem Phi_any3 (c : Dev nD) (t : Fin (cfg3.N + 1)) :
    (dat3 V c).Φ t ⊢ iprop(((∃ d, owns (c : Thread nD τ) scM3_0 fullShare d) ∗ restBut3 c) ∗ (∃ r, prngReg c r)) := by
  rw [show (dat3 V c).Φ t = PhiS3 V c t.val (Nat.le_of_lt_succ t.isLt) from rfl]
  by_cases ht : t.val = 0
  · rw [PhiS3_zero V c _ _ ht]; exact Entails.of_eq (PhiA3_eq c)
  rw [PhiS3_pos V c _ _ ht]
  iintro ⟨⟨HS0, HR⟩, Hg⟩
  isplitl [HS0 HR]
  · isplitl [HS0]
    · iexists _; iexact HS0
    iexact HR
  iexact Hg

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
theorem sound_body3 (c : Dev nD) (t : Fin cfg3.N) :
    bodyPre3 V c t ⊢ wp frame (wpE (defs₀ (F := F)) Variants.none c none) Set.univ (bodyPt3 t) (fun _ => bodyPost3 V c t) := by
  unfold bodyPre3 bodyPost3 bodyPt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 59829 := lt_of_lt_of_eq t.isLt (show cfg3.N = 59829 from N_3)
  by_cases h0 : t.val % 1221 = 0
  · by_cases h1 : t.val % 1221 = 1220
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2 t (fun h => h1 ((hcond1_1 t).mp h))) (noFlush3_2 t (fun h => h1 ((hcond1_1 t).mp h)))]
      rw [outsAt3_A V c t h0 h1]
      unfold atA3 sout1_A_0; (try dsimp only)
      refine (sep_mono_left (Phi_any3 V c t.castSucc)).trans ?_
      iintro ⟨⟨⟨HS0, HR⟩, Hg⟩, Ho, ⟨%d0, H0⟩, ⟨%d1, H1⟩, ⟨%d2, H2⟩⟩
      iapply ((kernelRun1_A c (grid3.coords t) _ _ _ _ _ _ _ _ ((hcond1_0 t).mpr h0) (fun h => h1 ((hcond1_1 t).mp h)) (iblk3 V c 0 t) (iblk3 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun hz => h0 (by rw [hz])
    by_cases h1 : t.val % 1221 = 1220
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t ((hcond1_1 t).mpr h1)], after3_2]
      rw [outsAt3_C V c t h0 h1]
      unfold atC3 out1_C_2 sout1_C_0; (try dsimp only)
      rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun1_C c (grid3.coords t) _ _ _ _ _ _ _ _ (fun h => h0 ((hcond1_0 t).mp h)) ((hcond1_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2 t (fun h => h1 ((hcond1_1 t).mp h))) (noFlush3_2 t (fun h => h1 ((hcond1_1 t).mp h)))]
      rw [outsAt3_B V c t h0 h1]
      unfold atB3 sout1_B_0; (try dsimp only)
      rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun1_B c (grid3.coords t) _ _ _ _ _ _ _ _ (fun h => h0 ((hcond1_0 t).mp h)) (fun h => h1 ((hcond1_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _)
          iexact HR
        iexact Hg
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c :=
  (Phi_any3 V c _).trans (Entails.of_eq (PhiA3_eq c).symm)

theorem acc3_reset (c : Dev nD) (t : Fin cfg3.N) (h : t.val % 1221 = 0) :
    (outsAt3 V c t.val t.isLt).2 = k1_pay2 (grid3.coords t) (iblk3 V c 1 t) (iblk3 V c 0 t) k1_pay1 := by
  have h1 : ¬t.val % 1221 = 1220 := by omega
  rw [outsAt3_A V c t h h1]
  unfold atA3
  dsimp only
  rw [sout1_A_eq]

theorem acc3_step (c : Dev nD) (t : Fin cfg3.N) (h : t.val % 1221 ≠ 0) :
    (outsAt3 V c t.val t.isLt).2 = k1_pay2 (grid3.coords t) (iblk3 V c 1 t) (iblk3 V c 0 t)
      (outsAt3 V c (t.val - 1) (Nat.lt_of_le_of_lt (Nat.sub_le _ _) t.isLt)).2 := by
  by_cases h1 : t.val % 1221 = 1220
  · rw [outsAt3_C V c t h h1]
    unfold atC3
    dsimp only
    rw [sout1_C_eq]
  · rw [outsAt3_B V c t h h1]
    unfold atB3
    dsimp only
    rw [sout1_B_eq]

theorem out3_flush (c : Dev nD) (t : Fin cfg3.N) (h : t.val % 1221 = 1220) :
    (outsAt3 V c t.val t.isLt).1 = (outsAt3 V c t.val t.isLt).2 := by
  have h0 : ¬t.val % 1221 = 0 := by omega
  rw [outsAt3_C V c t h0 h]
  unfold atC3
  dsimp only
  rw [out1_C_eq, sout1_C_eq]

end Region

end Cert.KernelIdeal.Reg

end
-- ==== Proof.KI.RunCond.lean ====
import proofs.«430617_j5463198400657_1_alg».proof.Proof.Gen.KernelIdeal.Regions

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V9 m c) ∗ E 0 c) ⊢ R0.pre c)
    (hpost0 : ∀ c : Dev nD, R0.post c ⊢ iprop(StableHlo.held (c : Thread nD τ) (Pipeline.ucRefs τ sig) (V10 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V20 m outs c) ∗ E 2 c) ⊢ R2.pre c)
    (hpost2 : ∀ c : Dev nD, R2.post c ⊢ iprop(StableHlo.held (c : Thread nD τ) (Pipeline.ucRefs τ sig) (V21 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V21 m outs c) ∗ E 3 c) ⊢ R3.pre c)
    (hpost3 : ∀ c : Dev nD, R3.post c ⊢ iprop(StableHlo.held (c : Thread nD τ) (Pipeline.ucRefs τ sig) (V22 m outs c) ∗ E 4 c)) :
    θ_run defs (onTc (τ := τ) (main (F := F))) ⟨m, fun _ => 0, ρ⟩ (fun r => ∀ c : Dev nD, ∀ b ∈ Pipeline.ucRefs τ sig,
      r.2.mem ((c.tc : Thread nD τ).1, b) = V23 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          Prog.lift (.customCall (Pipeline.entry 2) ()),
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V23 m outs c))
    (hch := fun c => ⟨.rfl, .rfl, .rfl, .rfl, .rfl, .rfl, .rfl, .rfl, .rfl, hpre0 c, (hpost0 c).trans (hpre1 c), hpost1 c, .rfl, .rfl, .rfl, .rfl, .rfl, .rfl, .rfl, .rfl, hpre2 c, (hpost2 c).trans (hpre3 c), hpost3 c, sep_mono .rfl (hE4 c)⟩)
    (hinit := ?_) (QY := fun c s => ∀ b ∈ Pipeline.ucRefs τ sig, s.mem ((c.tc : Thread nD τ).1, b) = V23 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V23 m outs c) s') $$ [Hh HSI]
    · isplitl [Hh] <;> iassumption
    icases Hr with ⟨%h, HSI⟩
    imodintro
    isplitr
    · ipureintro
      exact h
    · iexact HSI

end Cert.KernelIdeal.Reg

end
-- ==== Proof.KI.Asm.lean ====
import proofs.«430617_j5463198400657_1_alg».proof.Proof.Gen.KernelIdeal.Regions
import proofs.«430617_j5463198400657_1_alg».proof.Proof.KI.G0b
import proofs.«430617_j5463198400657_1_alg».proof.Proof.KI.S1
import proofs.«430617_j5463198400657_1_alg».proof.Proof.KI.G2b
import proofs.«430617_j5463198400657_1_alg».proof.Proof.KI.S3
import proofs.«430617_j5463198400657_1_alg».proof.Proof.KI.RunCond
import Idealize.ShloMosaic.Lib.Pipeline.RegionsLoop
import Idealize.ShloMosaic.Lib.Pipeline.FrameSuffix

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev rd (v : Valuation τ sig (Elt F)) (c : Dev nD) (b : Ref sig .tc) : Buf (Elt F) ((c : Thread nD τ).loc b) := v (Proc.devRef .tc b)

abbrev T0 (c : Dev nD) : Valuation τ sig (Elt F) := V9 m c
abbrev E0 (c : Dev nD) (b : Ref sig .tc) : Buf (Elt F) ((c : Thread nD τ).loc b) := T0 m c (Proc.devRef .tc b)

def o10 (c : Dev nD) : Buf (Elt F) ((c : Thread nD τ).loc main_v13) := (dat0 (E0 m) c).arrAt 3 cfg0.N

def T1 (c : Dev nD) : Valuation τ sig (Elt F) := Function.update (T0 m c) main_v13 (o10 m c)
abbrev E1 (c : Dev nD) (b : Ref sig .tc) : Buf (Elt F) ((c : Thread nD τ).loc b) := T1 m c (Proc.devRef .tc b)
def o11 (c : Dev nD) : Buf (Elt F) ((c : Thread nD τ).loc main_v14) := (dat1 (E1 m) c).arrAt 2 cfg1.N

def T1' (c : Dev nD) : Valuation τ sig (Elt F) := Function.update (T1 m c) main_v14 (o11 m c)

def mid (v : Valuation τ sig (Elt F)) : Valuation τ sig (Elt F) :=
  StableHlo.after hostOps2_8 (StableHlo.after hostOps2_7 (StableHlo.after hostOps2_6 (StableHlo.after hostOps2_5 (StableHlo.after hostOps2_4
    (StableHlo.after hostOps2_3 (StableHlo.after hostOps2_2 (StableHlo.after hostOps2_1 (StableHlo.after hostOps2 v))))))))

def T2 (c : Dev nD) : Valuation τ sig (Elt F) := mid (T1' m c)
abbrev E2 (c : Dev nD) (b : Ref sig .tc) : Buf (Elt F) ((c : Thread nD τ).loc b) := T2 m c (Proc.devRef .tc b)
def o21 (c : Dev nD) : Buf (Elt F) ((c : Thread nD τ).loc main_v25) := (dat2 (E2 m) c).arrAt 3 cfg2.N

def T3 (c : Dev nD) : Valuation τ sig (Elt F) := Function.update (T2 m c) main_v25 (o21 m c)
abbrev E3 (c : Dev nD) (b : Ref sig .tc) : Buf (Elt F) ((c : Thread nD τ).loc b) := T3 m c (Proc.devRef .tc b)
def o22 (c : Dev nD) : Buf (Elt F) ((c : Thread nD τ).loc main_v26) := (dat3 (E3 m) c).arrAt 2 cfg3.N

def T3' (c : Dev nD) : Valuation τ sig (Elt F) := Function.update (T3 m c) main_v26 (o22 m c)

def oD : Outs (F := F) := fun _ r c =>
  if h : r = main_v13 then h ▸ o10 m c
  else if h : r = main_v14 then h ▸ o11 m c
  else if h : r = main_v25 then h ▸ o21 m c
  else if h : r = main_v26 then h ▸ o22 m c
  else V0 m c (Proc.devRef .tc r)

theorem oD_10 (c : Dev nD) : oD m 10 main_v13 c = o10 m c := by unfold oD; rw [dif_pos rfl]
theorem oD_11 (c : Dev nD) : oD m 11 main_v14 c = o11 m c := by unfold oD; rw [dif_neg (by decide), dif_pos rfl]
theorem oD_21 (c : Dev nD) : oD m 21 main_v25 c = o21 m c := by unfold oD; rw [dif_neg (by decide), dif_neg (by decide), dif_pos rfl]
theorem oD_22 (c : Dev nD) : oD m 22 main_v26 c = o22 m c := by
  unfold oD; rw [dif_neg (by decide), dif_neg (by decide), dif_neg (by decide), dif_pos rfl]

theorem V10_eq (c : Dev nD) : V10 m (oD m) c = T1 m c := by
  show Function.update (V9 m c) main_v13 (oD m 10 main_v13 c) = _; rw [oD_10]; rfl
theorem V11_eq (c : Dev nD) : V11 m (oD m) c = T1' m c := by
  show Function.update (V10 m (oD m) c) main_v14 (oD m 11 main_v14 c) = _; rw [oD_11, V10_eq]; rfl
theorem V20_eq (c : Dev nD) : V20 m (oD m) c = T2 m c := by
  show mid (V11 m (oD m) c) = _; rw [V11_eq]; rfl
theorem V21_eq (c : Dev nD) : V21 m (oD m) c = T3 m c := by
  show Function.update (V20 m (oD m) c) main_v25 (oD m 21 main_v25 c) = _; rw [oD_21, V20_eq]; rfl
theorem V22_eq (c : Dev nD) : V22 m (oD m) c = T3' m c := by
  show Function.update (V21 m (oD m) c) main_v26 (oD m 22 main_v26 c) = _; rw [oD_22, V21_eq]; rfl

def pdats : (p : Fin 4) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0_0 (c : Dev nD) : rd (T1 m c) c (Pipeline.arrRef spec0 (0 : Fin 4)) = (dat0 (E0 m) c).arrAt (0 : Fin 4) cfg0.N := by
  show Function.update (T0 m c) (Proc.devRef .tc main_v13) (o10 m c) (Proc.devRef .tc (Pipeline.arrRef spec0 (0 : Fin 4))) = _
  rw [Function.update_of_ne (StableHlo.devRef_ne_of_ne (by decide))]
  exact ((A_eq0 (E0 m) c 0).symm.trans ((dat0 (E0 m) c).arrAt_in 0 rfl _).symm)
theorem hF0_1 (c : Dev nD) : rd (T1 m c) c (Pipeline.arrRef spec0 (1 : Fin 4)) = (dat0 (E0 m) c).arrAt (1 : Fin 4) cfg0.N := by
  show Function.update (T0 m c) (Proc.devRef .tc main_v13) (o10 m c) (Proc.devRef .tc (Pipeline.arrRef spec0 (1 : Fin 4))) = _
  rw [Function.update_of_ne (StableHlo.devRef_ne_of_ne (by decide))]
  exact ((A_eq0 (E0 m) c 1).symm.trans ((dat0 (E0 m) c).arrAt_in 1 rfl _).symm)
theorem hF0_2 (c : Dev nD) : rd (T1 m c) c (Pipeline.arrRef spec0 (2 : Fin 4)) = (dat0 (E0 m) c).arrAt (2 : Fin 4) cfg0.N := by
  show Function.update (T0 m c) (Proc.devRef .tc main_v13) (o10 m c) (Proc.devRef .tc (Pipeline.arrRef spec0 (2 : Fin 4))) = _
  rw [Function.update_of_ne (StableHlo.devRef_ne_of_ne (by decide))]
  exact ((A_eq0 (E0 m) c 2).symm.trans ((dat0 (E0 m) c).arrAt_in 2 rfl _).symm)
theorem hF0_3 (c : Dev nD) : rd (T1 m c) c (Pipeline.arrRef spec0 (3 : Fin 4)) = (dat0 (E0 m) c).arrAt (3 : Fin 4) cfg0.N := by
  show Function.update (T0 m c) (Proc.devRef .tc main_v13) (o10 m c) (Proc.devRef .tc main_v13) = _
  rw [Function.update_self]; rfl

theorem hF0 (c : Dev nD) : (w : Fin cfg0.W) → (pdats m 0 c).arrAt w cfg0.N = rd (T1 m c) c (Pipeline.arrRef spec0 w)
  | ⟨0, _⟩ => (hF0_0 m c).symm
  | ⟨1, _⟩ => (hF0_1 m c).symm
  | ⟨2, _⟩ => (hF0_2 m c).symm
  | ⟨3, _⟩ => (hF0_3 m c).symm

theorem hrest0 (c : Dev nD) : ∀ b, b ∉ Finset.univ.image (Pipeline.arrRef spec0) → rd (T1 m c) c b = rd (T0 m c) c b := by
  intro b hb
  show Function.update (T0 m c) (Proc.devRef .tc main_v13) (o10 m c) (Proc.devRef .tc b) = _
  exact Function.update_of_ne (StableHlo.devRef_ne_of_ne (fun e => hb (Finset.mem_image.mpr ⟨(3 : Fin 4), Finset.mem_univ _, e.symm⟩))) _ _

theorem hF1_0 (c : Dev nD) : rd (T1' m c) c (Pipeline.arrRef spec1 (0 : Fin 3)) = (dat1 (E1 m) c).arrAt (0 : Fin 3) cfg1.N := by
  show Function.update (T1 m c) (Proc.devRef .tc main_v14) (o11 m c) (Proc.devRef .tc (Pipeline.arrRef spec1 (0 : Fin 3))) = _
  rw [Function.update_of_ne (StableHlo.devRef_ne_of_ne (by decide))]
  exact ((A_eq1 (E1 m) c 0).symm.trans ((dat1 (E1 m) c).arrAt_in 0 rfl _).symm)
theorem hF1_1 (c : Dev nD) : rd (T1' m c) c (Pipeline.arrRef spec1 (1 : Fin 3)) = (dat1 (E1 m) c).arrAt (1 : Fin 3) cfg1.N := by
  show Function.update (T1 m c) (Proc.devRef .tc main_v14) (o11 m c) (Proc.devRef .tc (Pipeline.arrRef spec1 (1 : Fin 3))) = _
  rw [Function.update_of_ne (StableHlo.devRef_ne_of_ne (by decide))]
  exact ((A_eq1 (E1 m) c 1).symm.trans ((dat1 (E1 m) c).arrAt_in 1 rfl _).symm)
theorem hF1_2 (c : Dev nD) : rd (T1' m c) c (Pipeline.arrRef spec1 (2 : Fin 3)) = (dat1 (E1 m) c).arrAt (2 : Fin 3) cfg1.N := by
  show Function.update (T1 m c) (Proc.devRef .tc main_v14) (o11 m c) (Proc.devRef .tc main_v14) = _
  rw [Function.update_self]; rfl

theorem hF1 (c : Dev nD) : (w : Fin cfg1.W) → (pdats m 1 c).arrAt w cfg1.N = rd (T1' m c) c (Pipeline.arrRef spec1 w)
  | ⟨0, _⟩ => (hF1_0 m c).symm
  | ⟨1, _⟩ => (hF1_1 m c).symm
  | ⟨2, _⟩ => (hF1_2 m c).symm

theorem hrest1 (c : Dev nD) : ∀ b, b ∉ Finset.univ.image (Pipeline.arrRef spec1) → rd (T1' m c) c b = rd (T1 m c) c b := by
  intro b hb
  show Function.update (T1 m c) (Proc.devRef .tc main_v14) (o11 m c) (Proc.devRef .tc b) = _
  exact Function.update_of_ne (StableHlo.devRef_ne_of_ne (fun e => hb (Finset.mem_image.mpr ⟨(2 : Fin 3), Finset.mem_univ _, e.symm⟩))) _ _

theorem hF2_0 (c : Dev nD) : rd (T3 m c) c (Pipeline.arrRef spec2 (0 : Fin 4)) = (dat2 (E2 m) c).arrAt (0 : Fin 4) cfg2.N := by
  show Function.update (T2 m c) (Proc.devRef .tc main_v25) (o21 m c) (Proc.devRef .tc (Pipeline.arrRef spec2 (0 : Fin 4))) = _
  rw [Function.update_of_ne (StableHlo.devRef_ne_of_ne (by decide))]
  exact ((A_eq2 (E2 m) c 0).symm.trans ((dat2 (E2 m) c).arrAt_in 0 rfl _).symm)
theorem hF2_1 (c : Dev nD) : rd (T3 m c) c (Pipeline.arrRef spec2 (1 : Fin 4)) = (dat2 (E2 m) c).arrAt (1 : Fin 4) cfg2.N := by
  show Function.update (T2 m c) (Proc.devRef .tc main_v25) (o21 m c) (Proc.devRef .tc (Pipeline.arrRef spec2 (1 : Fin 4))) = _
  rw [Function.update_of_ne (StableHlo.devRef_ne_of_ne (by decide))]
  exact ((A_eq2 (E2 m) c 1).symm.trans ((dat2 (E2 m) c).arrAt_in 1 rfl _).symm)
theorem hF2_2 (c : Dev nD) : rd (T3 m c) c (Pipeline.arrRef spec2 (2 : Fin 4)) = (dat2 (E2 m) c).arrAt (2 : Fin 4) cfg2.N := by
  show Function.update (T2 m c) (Proc.devRef .tc main_v25) (o21 m c) (Proc.devRef .tc (Pipeline.arrRef spec2 (2 : Fin 4))) = _
  rw [Function.update_of_ne (StableHlo.devRef_ne_of_ne (by decide))]
  exact ((A_eq2 (E2 m) c 2).symm.trans ((dat2 (E2 m) c).arrAt_in 2 rfl _).symm)
theorem hF2_3 (c : Dev nD) : rd (T3 m c) c (Pipeline.arrRef spec2 (3 : Fin 4)) = (dat2 (E2 m) c).arrAt (3 : Fin 4) cfg2.N := by
  show Function.update (T2 m c) (Proc.devRef .tc main_v25) (o21 m c) (Proc.devRef .tc main_v25) = _
  rw [Function.update_self]; rfl

theorem hF2 (c : Dev nD) : (w : Fin cfg2.W) → (pdats m 2 c).arrAt w cfg2.N = rd (T3 m c) c (Pipeline.arrRef spec2 w)
  | ⟨0, _⟩ => (hF2_0 m c).symm
  | ⟨1, _⟩ => (hF2_1 m c).symm
  | ⟨2, _⟩ => (hF2_2 m c).symm
  | ⟨3, _⟩ => (hF2_3 m c).symm

theorem hrest2 (c : Dev nD) : ∀ b, b ∉ Finset.univ.image (Pipeline.arrRef spec2) → rd (T3 m c) c b = rd (T2 m c) c b := by
  intro b hb
  show Function.update (T2 m c) (Proc.devRef .tc main_v25) (o21 m c) (Proc.devRef .tc b) = _
  exact Function.update_of_ne (StableHlo.devRef_ne_of_ne (fun e => hb (Finset.mem_image.mpr ⟨(3 : Fin 4), Finset.mem_univ _, e.symm⟩))) _ _

theorem hF3_0 (c : Dev nD) : rd (T3' m c) c (Pipeline.arrRef spec3 (0 : Fin 3)) = (dat3 (E3 m) c).arrAt (0 : Fin 3) cfg3.N := by
  show Function.update (T3 m c) (Proc.devRef .tc main_v26) (o22 m c) (Proc.devRef .tc (Pipeline.arrRef spec3 (0 : Fin 3))) = _
  rw [Function.update_of_ne (StableHlo.devRef_ne_of_ne (by decide))]
  exact ((A_eq3 (E3 m) c 0).symm.trans ((dat3 (E3 m) c).arrAt_in 0 rfl _).symm)
theorem hF3_1 (c : Dev nD) : rd (T3' m c) c (Pipeline.arrRef spec3 (1 : Fin 3)) = (dat3 (E3 m) c).arrAt (1 : Fin 3) cfg3.N := by
  show Function.update (T3 m c) (Proc.devRef .tc main_v26) (o22 m c) (Proc.devRef .tc (Pipeline.arrRef spec3 (1 : Fin 3))) = _
  rw [Function.update_of_ne (StableHlo.devRef_ne_of_ne (by decide))]
  exact ((A_eq3 (E3 m) c 1).symm.trans ((dat3 (E3 m) c).arrAt_in 1 rfl _).symm)
theorem hF3_2 (c : Dev nD) : rd (T3' m c) c (Pipeline.arrRef spec3 (2 : Fin 3)) = (dat3 (E3 m) c).arrAt (2 : Fin 3) cfg3.N := by
  show Function.update (T3 m c) (Proc.devRef .tc main_v26) (o22 m c) (Proc.devRef .tc main_v26) = _
  rw [Function.update_self]; rfl

theorem hF3 (c : Dev nD) : (w : Fin cfg3.W) → (pdats m 3 c).arrAt w cfg3.N = rd (T3' m c) c (Pipeline.arrRef spec3 w)
  | ⟨0, _⟩ => (hF3_0 m c).symm
  | ⟨1, _⟩ => (hF3_1 m c).symm
  | ⟨2, _⟩ => (hF3_2 m c).symm

theorem hrest3 (c : Dev nD) : ∀ b, b ∉ Finset.univ.image (Pipeline.arrRef spec3) → rd (T3' m c) c b = rd (T3 m c) c b := by
  intro b hb
  show Function.update (T3 m c) (Proc.devRef .tc main_v26) (o22 m c) (Proc.devRef .tc b) = _
  exact Function.update_of_ne (StableHlo.devRef_ne_of_ne (fun e => hb (Finset.mem_image.mpr ⟨(2 : Fin 3), Finset.mem_univ _, e.symm⟩))) _ _

-- One kernel launch as a segment of @main, built from its proof data's facts: the same construction for all four.
set_option backward.isDefEq.respectTransparency.types false in
def regOf (p : Fin 4) (launch : Pipeline.LaunchFacts (nD := nD) (τ := τ) cfgs p) (Ti To : Dev nD → Valuation τ sig (Elt F))
    (hbody : ∀ c, BodyObligation (pdats m p c) (defs₀ (F := F)) Variants.none () Set.univ)
    (howed : ∀ c t, (pdats m p c).owed t = 0) (hq : ∀ c w, (pdats m p c).q w = fullShare)
    (hA : ∀ c w, (pdats m p c).A w = rd (Ti c) c (Pipeline.arrRef (pcfgs (F := F) p).spec w))
    (hΦi : ∀ c, Pipeline.ΦA (pcfgs (F := F) p).spec c ⊢ (pdats m p c).Φ 0)
    (hΦo : ∀ c, (pdats m p c).Φ (Fin.last (cfgs p).N) ⊢ Pipeline.ΦA (pcfgs (F := F) p).spec c)
    (hF : ∀ c w, (pdats m p c).arrAt w (cfgs p).N = rd (To c) c (Pipeline.arrRef (pcfgs (F := F) p).spec w))
    (hrest : ∀ c b, b ∉ Finset.univ.image (Pipeline.arrRef (pcfgs (F := F) p).spec) → rd (To c) c b = rd (Ti c) c b)
    (hrec : ∀ c x, x ∈ (pdats m p c).recorded 0) :
    Pipeline.RegionSeg (pcfgs (F := F)) adm (pdats m) () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p fun c t => howed c t
  pre c := iprop(StableHlo.held (c : Thread nD τ) (Pipeline.ucRefs τ sig) (Ti c) ∗ R c)
  post c := iprop(StableHlo.held (c : Thread nD τ) (Pipeline.ucRefs τ sig) (To c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (rd (Ti c) c)
  hentry c := by
    rw [Pipeline.ownSems0_none]
    have hsplit := Pipeline.arrays_of_unscopedBufs (p := p) (pcfgs (F := F)) adm (pdats m) launch.win launch.arr_whole c
      ((pdats m p c).share_full (hq c)) (rd (Ti c) c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (hrec c x)
      rw [show (pdats m p c).owed 0 = 0 from howed c 0]
      iexact HO
    isplitl [Hp]; · iexact Hp
    iexact Hrest
  hin c := by
    refine .trans ?_ (hΦi c)
    unfold Pipeline.ΦA
    iintro ⟨Hp, -, Hr⟩
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (rd (Ti c) c) (rd (To c) c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m p c).owed (Fin.last _) = 0 from howed c _]
    iexact HO

set_option backward.isDefEq.respectTransparency.types false in
def reg0 : Pipeline.RegionSeg (pcfgs (F := F)) adm (pdats m) () defs₀ Variants.none L lv 0 :=
  regOf m 0 launch0 (T0 m) (T1 m) (fun c => body_obligation0 (E0 m) c) (fun c t => owed_eq0 (E0 m) c t) (fun c w => q_eq0 (E0 m) c w)
    (fun c w => A_eq0 (E0 m) c w) (fun c => hin0 (E0 m) c) (fun c => hout0 (E0 m) c) (hF0 m) (hrest0 m) (fun _ _ => trivial)

set_option backward.isDefEq.respectTransparency.types false in
def reg1 : Pipeline.RegionSeg (pcfgs (F := F)) adm (pdats m) () defs₀ Variants.none L lv 1 :=
  regOf m 1 launch1 (T1 m) (T1' m) (fun c => body_obligation1 (E1 m) c) (fun c t => owed_eq1 (E1 m) c t) (fun c w => q_eq1 (E1 m) c w)
    (fun c w => A_eq1 (E1 m) c w) (fun c => hin1 (E1 m) c) (fun c => hout1 (E1 m) c) (hF1 m) (hrest1 m) (fun _ _ => trivial)

set_option backward.isDefEq.respectTransparency.types false in
def reg2 : Pipeline.RegionSeg (pcfgs (F := F)) adm (pdats m) () defs₀ Variants.none L lv 2 :=
  regOf m 2 launch2 (T2 m) (T3 m) (fun c => body_obligation2 (E2 m) c) (fun c t => owed_eq2 (E2 m) c t) (fun c w => q_eq2 (E2 m) c w)
    (fun c w => A_eq2 (E2 m) c w) (fun c => hin2 (E2 m) c) (fun c => hout2 (E2 m) c) (hF2 m) (hrest2 m) (fun _ _ => trivial)

set_option backward.isDefEq.respectTransparency.types false in
def reg3 : Pipeline.RegionSeg (pcfgs (F := F)) adm (pdats m) () defs₀ Variants.none L lv 3 :=
  regOf m 3 launch3 (T3 m) (T3' m) (fun c => body_obligation3 (E3 m) c) (fun c t => owed_eq3 (E3 m) c t) (fun c w => q_eq3 (E3 m) c w)
    (fun c w => A_eq3 (E3 m) c w) (fun c => hin3 (E3 m) c) (fun c => hout3 (E3 m) c) (hF3 m) (hrest3 m) (fun _ _ => trivial)

theorem hu₀ :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c => R c) : sProp 𝕄) := by
  refine Pipeline.initEach L lv fun c => ?_
  iintro ⟨⟨-, HO, -, Hp, -⟩, -⟩
  imodintro
  isplitl [Hp]; · iexists _; iexact Hp
  iexists ∅; iexact HO

theorem hE4 (c : Dev nD) : R c ⊢ (iprop(∃ W, owes (c : Thread nD τ) (0 : CellTallies nD τ sig Unit) W) : sProp 𝕄) := by
  iintro ⟨-, HO⟩; iexact HO

set_option backward.isDefEq.respectTransparency.types false in

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m (emb₁ (A := UR sig nD τ)) () Variants.none L lv (fun _ _ => rfl) ρ (oD m) (pdats m)
    (0 : Dev nD → CellTallies nD τ sig Unit) (fun _ => (BI.emp : sProp 𝕄))
    (initOf (Pipeline.cells cfgs cellOf_inj) (Pipeline.launchToks cfgs cellOf_inj)) (hu₀ (F := F))
    (fun _ c => R c) (hE0 ρ) (fun c => hE4 c)
    (reg0 m) (fun c => .rfl) (fun c => Entails.of_eq (by rw [V10_eq]; rfl))
    (reg1 m) (fun c => Entails.of_eq (by rw [V10_eq]; rfl)) (fun c => Entails.of_eq (by rw [V11_eq]; rfl))
    (reg2 m) (fun c => Entails.of_eq (by rw [V20_eq]; rfl)) (fun c => Entails.of_eq (by rw [V21_eq]; rfl))
    (reg3 m) (fun c => Entails.of_eq (by rw [V21_eq]; rfl)) (fun c => Entails.of_eq (by rw [V22_eq]; rfl))

set_option backward.isDefEq.respectTransparency.types false in

theorem run_all (ρ : Dev nD → PrngReg) :
    θ_run defs (onTc (τ := τ) (main (F := F))) ⟨m, fun _ => 0, ρ⟩ (fun r => ∀ c : Dev nD, ∀ b ∈ Pipeline.ucRefs τ sig,
      r.2.mem ((c.tc : Thread nD τ).1, b) = V23 m (oD m) c b) :=
  run_cond m (emb₁ (A := UR sig nD τ)) () Variants.none L lv (fun _ _ => rfl) ρ (oD m) (pdats m)
    (0 : Dev nD → CellTallies nD τ sig Unit) (fun _ => (BI.emp : sProp 𝕄))
    (initOf (Pipeline.cells cfgs cellOf_inj) (Pipeline.launchToks cfgs cellOf_inj)) (hu₀ (F := F))
    (fun _ c => R c) (hE0 ρ) (fun c => hE4 c)
    (reg0 m) (fun c => .rfl) (fun c => Entails.of_eq (by rw [V10_eq]; rfl))
    (reg1 m) (fun c => Entails.of_eq (by rw [V10_eq]; rfl)) (fun c => Entails.of_eq (by rw [V11_eq]; rfl))
    (reg2 m) (fun c => Entails.of_eq (by rw [V20_eq]; rfl)) (fun c => Entails.of_eq (by rw [V21_eq]; rfl))
    (reg3 m) (fun c => Entails.of_eq (by rw [V21_eq]; rfl)) (fun c => Entails.of_eq (by rw [V22_eq]; rfl))

end Cert.KernelIdeal.Reg

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev SN : Shape := ⟨2, ![100000, 32]⟩
abbrev SNp : Shape := ⟨2, ![100352, 32]⟩

abbrev SE2 : Shape := ⟨2, ![2, 2500000]⟩
abbrev SE : Shape := ⟨1, ![2500000]⟩
abbrev SEr : Shape := ⟨2, ![1, 2500608]⟩

abbrev SEp : Shape := ⟨2, ![2500608, 32]⟩

def wrapIdx (b : BitVec 32) : BitVec 32 := if b.toInt < 0 then b + 100000#32 else b

def rowOf (b : BitVec 32) : Fin 100000 := ⟨min b.toInt.toNat 99999, by omega⟩

-- One round: each edge's weighted source row, added into its destination row (an entry naming no node adds nothing).
def layer (x : SN.Idx → EReal) (ei : SE2.Idx → BitVec 32) (w : SE.Idx → EReal) : SN.Idx → EReal :=
  fun i => ∑ e : Fin 2500000,
    if (ei (ix2 1 e)).toInt = ((i 0).val : Int) then x (ix2 (rowOf (wrapIdx (ei (ix2 0 e)))) (i 1)) * w (ix1 e) else 0

def padRows (x : SN.Idx → EReal) : SNp.Idx → EReal :=
  fun i => if h : (i 0).val < 100000 then x (ix2 ⟨(i 0).val, h⟩ (i 1)) else 0

def padRowI (r : Fin 2) (ei : SE2.Idx → BitVec 32) : SEr.Idx → BitVec 32 :=
  fun j => if h : (j 1).val < 2500000 then ei (ix2 r ⟨(j 1).val, h⟩) else 0#32

def padRowF (w : SE.Idx → EReal) : SEr.Idx → EReal :=
  fun j => if h : (j 1).val < 2500000 then w (ix1 ⟨(j 1).val, h⟩) else 0

def hit (n : Nat) (b : BitVec 32) : EReal := if BitVec.ofNat 32 n = b then 1 else 0

def gatherG (xp : SNp.Idx → EReal) (sr : SEr.Idx → BitVec 32) (wr : SEr.Idx → EReal) : SEp.Idx → EReal :=
  fun j => ∑ n : Fin 100352, (hit n.val (sr (ix2 0 (j 0))) * wr (ix2 0 (j 0))) * xp (ix2 n (j 1))

def scatterG (msg : SEp.Idx → EReal) (dr : SEr.Idx → BitVec 32) : SNp.Idx → EReal :=
  fun i => ∑ e : Fin 2500608, hit (i 0).val (dr (ix2 0 e)) * msg (ix2 e (i 1))

def cropRows (y : SNp.Idx → EReal) : SN.Idx → EReal :=
  fun i => y (ix2 ⟨(i 0).val, by have := idx2_lt0 i; omega⟩ (i 1))

-- The same round as the kernel forms it: both sums taken against 0/1 comparison masks over the padded ranges.
def kernelLayer (x : SN.Idx → EReal) (ei : SE2.Idx → BitVec 32) (w : SE.Idx → EReal) : SN.Idx → EReal :=
  cropRows (scatterG (gatherG (padRows x) (padRowI 0 ei) (padRowF w)) (padRowI 1 ei))

end Cert.Spec

end
-- ==== Proof.KI.HostRead.lean ====
import proofs.«430617_j5463198400657_1_alg».proof.Proof.Gen.KernelIdeal.Regions
import proofs.«430617_j5463198400657_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Reg

open Cert.KernelIdeal Cert.KernelIdeal.Gen Idealize.ShloMosaic Idealize.ShloMosaic.TcCoe Idealize.ShloMosaic.ValueIdx
open Idealize.SL.Sem

section Pure
variable {α : Type}

theorem flatRow_apply (o : ℕ) (r : Fin 2) (hr : r.val = o) (ei : S2x2500000.Idx → α)
    (hs : S2x2500000.Slices ![o, 0] S1x2500000) (hc : S1x2500000.ShapeCasts S2500000) (e : Fin 2500000) :
    shapeCast S2500000 (extractStridedSlice S1x2500000 ![o, 0] ei hs) hc (ix1 e) = ei (ix2 r e) := by
  refine (shapeCast_apply _ hc (ix1 e) (ix2 (0 : Fin 1) e) ?_).trans ?_
  · rw [Shape.rowMajor_val_two, Shape.rowMajor_val_one]
    show 0 * 2500000 + e.val = e.val
    omega
  · exact extractStridedSlice_apply ![o, 0] ei hs _ (ix2 r e) (fun a => match a with
      | ⟨0, _⟩ => by show r.val = o + 0; omega
      | ⟨1, _⟩ => by show e.val = 0 + e.val; omega)

theorem padRow_apply (x : S2500000.Idx → α) (z : S_.Idx → α) (hp : S2500000.Pads (![0] : Fin 1 → ℕ) ![608] ![0] S2500608)
    (hu : 0 < S_.numel) (hc : S2500608.ShapeCasts S1x2500608) (a : Fin 1) (j : Fin 2500608) :
    shapeCast S1x2500608 (pad S2500608 ![0] ![608] ![0] x z hp hu) hc (ix2 a j)
      = if h : j.val < 2500000 then x (ix1 ⟨j.val, h⟩) else z (Shape.Idx.first hu) := by
  refine (shapeCast_apply _ hc (ix2 a j) (ix1 j) ?_).trans ?_
  · rw [Shape.rowMajor_val_two, Shape.rowMajor_val_one]
    show j.val = a.val * 2500608 + j.val
    have := a.isLt; omega
  · by_cases h : j.val < 2500000
    · rw [dif_pos h]
      exact pad_apply_of_inside _ _ _ x z hp hu _ (ix1 ⟨j.val, h⟩) (fun b => match b with
        | ⟨0, _⟩ => by show j.val = 0 + j.val * (0 + 1); omega)
    · rw [dif_neg h]
      exact pad_apply_of_not_inside _ _ _ x z hp hu _ (0 : Fin 1) (by
        show ¬(0 ≤ j.val ∧ (j.val - 0) % (0 + 1) = 0 ∧ (j.val - 0) / (0 + 1) < 2500000)
        omega)

theorem padRows_apply (x : S100000x32.Idx → α) (z : S_.Idx → α)
    (hp : S100000x32.Pads (![0, 0] : Fin 2 → ℕ) ![352, 0] ![0, 0] S100352x32) (hu : 0 < S_.numel) (p : Fin 100352) (q : Fin 32) :
    pad S100352x32 ![0, 0] ![352, 0] ![0, 0] x z hp hu (ix2 p q)
      = if h : p.val < 100000 then x (ix2 ⟨p.val, h⟩ q) else z (Shape.Idx.first hu) := by
  by_cases h : p.val < 100000
  · rw [dif_pos h]
    exact pad_apply_of_inside _ _ _ x z hp hu _ (ix2 ⟨p.val, h⟩ q) (fun b => match b with
      | ⟨0, _⟩ => by show p.val = 0 + p.val * (0 + 1); omega
      | ⟨1, _⟩ => by show q.val = 0 + q.val * (0 + 1); omega)
  · rw [dif_neg h]
    exact pad_apply_of_not_inside _ _ _ x z hp hu _ (0 : Fin 2) (by
      show ¬(0 ≤ p.val ∧ (p.val - 0) % (0 + 1) = 0 ∧ (p.val - 0) / (0 + 1) < 100000)
      omega)

theorem sitofp_zero_apply (φ : FTy) (hu : 0 < S_.numel) :
    (sitofp (F := Ideal) φ (constantI S_ 32 0#32)) (Shape.Idx.first hu) = (0 : EReal) := by
  show (((0#32 : BitVec 32).toInt : ℝ) : EReal) = 0
  simp

end Pure

theorem padRowI_ix2 (r : Fin 2) (ei : Cert.Spec.SE2.Idx → BitVec 32) (a : Fin 1) (j : Fin 2500608) :
    Cert.Spec.padRowI r ei (ix2 a j) = if h : j.val < 2500000 then ei (ix2 r ⟨j.val, h⟩) else 0#32 := rfl
theorem padRowF_ix2 (w : Cert.Spec.SE.Idx → EReal) (a : Fin 1) (j : Fin 2500608) :
    Cert.Spec.padRowF w (ix2 a j) = if h : j.val < 2500000 then w (ix1 ⟨j.val, h⟩) else 0 := rfl
theorem padRows_ix2 (x : Cert.Spec.SN.Idx → EReal) (p : Fin 100352) (q : Fin 32) :
    Cert.Spec.padRows x (ix2 p q) = if h : p.val < 100000 then x (ix2 ⟨p.val, h⟩ q) else 0 := rfl

theorem rowI_eq (o : ℕ) (r : Fin 2) (hr : r.val = o) (ei : S2x2500000.Idx → BitVec 32)
    (hs : S2x2500000.Slices ![o, 0] S1x2500000) (hc : S1x2500000.ShapeCasts S2500000)
    (hp : S2500000.Pads (![0] : Fin 1 → ℕ) ![608] ![0] S2500608) (hu : 0 < S_.numel) (hc' : S2500608.ShapeCasts S1x2500608) :
    shapeCast S1x2500608 (pad S2500608 ![0] ![608] ![0] (shapeCast S2500000 (extractStridedSlice S1x2500000 ![o, 0] ei hs) hc)
        (constantI S_ 32 0#32) hp hu) hc' = Cert.Spec.padRowI r ei := by
  funext i
  obtain ⟨a, j, rfl⟩ : ∃ a j, i = ix2 a j := ⟨i 0, i 1, eq_ix2 i⟩
  rw [padRowI_ix2]
  refine (padRow_apply _ _ hp hu hc' a j).trans ?_
  by_cases h : j.val < 2500000
  · rw [dif_pos h, dif_pos h]
    exact flatRow_apply o r hr ei hs hc ⟨j.val, h⟩
  · rw [dif_neg h, dif_neg h]
    rfl

theorem rowF_eq (w : S2500000.Idx → EReal) (hp : S2500000.Pads (![0] : Fin 1 → ℕ) ![608] ![0] S2500608) (hu : 0 < S_.numel)
    (hc' : S2500608.ShapeCasts S1x2500608) :
    shapeCast S1x2500608 (pad S2500608 ![0] ![608] ![0] w (sitofp (F := Ideal) .f32 (constantI S_ 32 0#32)) hp hu) hc'
      = Cert.Spec.padRowF w := by
  funext i
  obtain ⟨a, j, rfl⟩ : ∃ a j, i = ix2 a j := ⟨i 0, i 1, eq_ix2 i⟩
  rw [padRowF_ix2]
  refine (padRow_apply _ _ hp hu hc' a j).trans ?_
  by_cases h : j.val < 2500000
  · rw [dif_pos h, dif_pos h]
  · rw [dif_neg h, dif_neg h]
    exact sitofp_zero_apply .f32 hu

theorem rows_eq (x : S100000x32.Idx → EReal) (hp : S100000x32.Pads (![0, 0] : Fin 2 → ℕ) ![352, 0] ![0, 0] S100352x32)
    (hu : 0 < S_.numel) :
    pad S100352x32 ![0, 0] ![352, 0] ![0, 0] x (sitofp (F := Ideal) .bf16 (constantI S_ 32 0#32)) hp hu = Cert.Spec.padRows x := by
  funext i
  obtain ⟨p, q, rfl⟩ : ∃ p q, i = ix2 p q := ⟨i 0, i 1, eq_ix2 i⟩
  rw [padRows_ix2]
  refine (padRows_apply _ _ hp hu p q).trans ?_
  by_cases h : p.val < 100000
  · rw [dif_pos h, dif_pos h]
  · rw [dif_neg h, dif_neg h]
    exact sitofp_zero_apply .bf16 hu

theorem crop_eq (y : S100352x32.Idx → EReal) (hs : S100352x32.Slices ![0, 0] S100000x32) :
    extractStridedSlice S100000x32 ![0, 0] y hs = Cert.Spec.cropRows y := by
  funext i
  exact extractStridedSlice_apply ![0, 0] y hs i _ (fun a => match a with
    | ⟨0, _⟩ => by show (i 0).val = 0 + (i 0).val; omega
    | ⟨1, _⟩ => by show (i 1).val = 0 + (i 1).val; omega)

variable (m : (ℓ : Loc nD τ sig) → Buf (Elt Ideal) ℓ) (outs : Outs (F := Ideal)) (c : Dev nD)

theorem V1_v1 : V1 m c main_v1 = shapeCast S2500000 (extractStridedSlice S1x2500000 ![0, 0] (m ((c : Thread nD τ).loc main_arg1)) slices_S2x2500000_S1x2500000_0_0) shapeCasts_S1x2500000_S2500000 := by
  show StableHlo.after hostOps0 _ (Proc.devRef .tc main_v1) = _
  after_results
  rfl
theorem V1_v3 : V1 m c main_v3 = shapeCast S2500000 (extractStridedSlice S1x2500000 ![1, 0] (m ((c : Thread nD τ).loc main_arg1)) slices_S2x2500000_S1x2500000_1_0) shapeCasts_S1x2500000_S2500000 := by
  show StableHlo.after hostOps0 _ (Proc.devRef .tc main_v3) = _
  after_results
  rfl

theorem V9_v7 : (V9 m c main_v7 : Cert.Spec.SEr.Idx → BitVec 32) = Cert.Spec.padRowI 0 (m ((c : Thread nD τ).loc main_arg1)) := by
  have e0 : V9 m c main_v7 = V5 m c main_v7 := (V9_of m c main_v7 (by decide)).trans <| (V8_of m c main_v7 (by decide)).trans <| (V7_of m c main_v7 (by decide)).trans <| (V6_of m c main_v7 (by decide))
  have e1 : V5 m c main_v7 = shapeCast S1x2500608 (V4 m c main_v6 : S2500608.Idx → BitVec 32) shapeCasts_S2500608_S1x2500608 := by
    show StableHlo.after hostOps0_4 _ (Proc.devRef .tc main_v7) = _
    after_results
    rfl
  have e2 : V4 m c main_v6 = pad S2500608 ![0] ![608] ![0] (V3 m c main_v1 : S2500000.Idx → BitVec 32) (V3 m c main_c_0 : S_.Idx → BitVec 32) pads_S2500000_S2500608_06080 h_S_ := by
    show StableHlo.after hostOps0_3 _ (Proc.devRef .tc main_v6) = _
    after_results
    rfl
  have e3 : V3 m c main_c_0 = constantI S_ 32 0#32 := by
    show StableHlo.after hostOps0_2 _ (Proc.devRef .tc main_c_0) = _
    after_results
  have e4 : V3 m c main_v1 = V1 m c main_v1 := (V3_of m c main_v1 (by decide)).trans <| (V2_of m c main_v1 (by decide))
  rw [e0, e1, e2, e3, e4, V1_v1]
  exact rowI_eq 0 0 rfl _ _ _ _ _ _

theorem V9_v9 : (V9 m c main_v9 : Cert.Spec.SEr.Idx → BitVec 32) = Cert.Spec.padRowI 1 (m ((c : Thread nD τ).loc main_arg1)) := by
  have e0 : V9 m c main_v9 = V7 m c main_v9 := (V9_of m c main_v9 (by decide)).trans <| (V8_of m c main_v9 (by decide))
  have e1 : V7 m c main_v9 = shapeCast S1x2500608 (V6 m c main_v8 : S2500608.Idx → BitVec 32) shapeCasts_S2500608_S1x2500608 := by
    show StableHlo.after hostOps0_6 _ (Proc.devRef .tc main_v9) = _
    after_results
    rfl
  have e2 : V6 m c main_v8 = pad S2500608 ![0] ![608] ![0] (V5 m c main_v3 : S2500000.Idx → BitVec 32) (V5 m c main_c_1 : S_.Idx → BitVec 32) pads_S2500000_S2500608_06080 h_S_ := by
    show StableHlo.after hostOps0_5 _ (Proc.devRef .tc main_v8) = _
    after_results
    rfl
  have e3 : V5 m c main_c_1 = constantI S_ 32 0#32 := by
    show StableHlo.after hostOps0_4 _ (Proc.devRef .tc main_c_1) = _
    after_results
  have e4 : V5 m c main_v3 = V1 m c main_v3 := (V5_of m c main_v3 (by decide)).trans <| (V4_of m c main_v3 (by decide)).trans <| (V3_of m c main_v3 (by decide)).trans <| (V2_of m c main_v3 (by decide))
  rw [e0, e1, e2, e3, e4, V1_v3]
  exact rowI_eq 1 1 rfl _ _ _ _ _ _

theorem V9_v5 : (V9 m c main_v5 : Cert.Spec.SNp.Idx → EReal) = Cert.Spec.padRows (m ((c : Thread nD τ).loc main_arg0)) := by
  have e0 : V9 m c main_v5 = V2 m c main_v5 := (V9_of m c main_v5 (by decide)).trans <| (V8_of m c main_v5 (by decide)).trans <| (V7_of m c main_v5 (by decide)).trans <| (V6_of m c main_v5 (by decide)).trans <| (V5_of m c main_v5 (by decide)).trans <| (V4_of m c main_v5 (by decide)).trans <| (V3_of m c main_v5 (by decide))
  have e1 : V2 m c main_v5 = pad S100352x32 ![0, 0] ![352, 0] ![0, 0] (V1 m c main_v4 : S100000x32.Idx → EReal) (sitofp (F := Ideal) .bf16 (V1 m c main_c : S_.Idx → BitVec 32)) pads_S100000x32_S100352x32_03520_000 h_S_ := by
    show StableHlo.after hostOps0_1 _ (Proc.devRef .tc main_v5) = _
    after_results
    rfl
  have e2 : V1 m c main_v4 = (m ((c : Thread nD τ).loc main_arg0) : S100000x32.Idx → EReal) := by
    show StableHlo.after hostOps0 _ (Proc.devRef .tc main_v4) = _
    after_results
    rfl
  have e3 : V1 m c main_c = constantI S_ 32 0#32 := by
    show StableHlo.after hostOps0 _ (Proc.devRef .tc main_c) = _
    after_results
  rw [e0, e1, e2, e3]
  exact rows_eq _ _ _

theorem V9_v12 : (V9 m c main_v12 : Cert.Spec.SEr.Idx → EReal) = Cert.Spec.padRowF (m ((c : Thread nD τ).loc main_arg2)) := by
  have e1 : V9 m c main_v12 = shapeCast S1x2500608 (V8 m c main_v10 : S2500608.Idx → EReal) shapeCasts_S2500608_S1x2500608 := by
    show StableHlo.after hostOps0_8 _ (Proc.devRef .tc main_v12) = _
    after_results
    rfl
  have e2 : V8 m c main_v10 = pad S2500608 ![0] ![608] ![0] (V7 m c main_arg2 : S2500000.Idx → EReal) (sitofp (F := Ideal) .f32 (V7 m c main_c_2 : S_.Idx → BitVec 32)) pads_S2500000_S2500608_06080 h_S_ := by
    show StableHlo.after hostOps0_7 _ (Proc.devRef .tc main_v10) = _
    after_results
    rfl
  have e3 : V7 m c main_c_2 = constantI S_ 32 0#32 := by
    show StableHlo.after hostOps0_6 _ (Proc.devRef .tc main_c_2) = _
    after_results
  have e4 : V7 m c main_arg2 = m ((c : Thread nD τ).loc main_arg2) := (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
  rw [e1, e2, e3, e4]
  exact rowF_eq _ _ _ _

theorem V20_v17 : (V20 m outs c main_v17 : Cert.Spec.SNp.Idx → EReal) = Cert.Spec.padRows (Cert.Spec.cropRows (V11 m outs c main_v14)) := by
  have e0 : V20 m outs c main_v17 = V13 m outs c main_v17 := (V20_of m outs c main_v17 (by decide)).trans <| (V19_of m outs c main_v17 (by decide)).trans <| (V18_of m outs c main_v17 (by decide)).trans <| (V17_of m outs c main_v17 (by decide)).trans <| (V16_of m outs c main_v17 (by decide)).trans <| (V15_of m outs c main_v17 (by decide)).trans <| (V14_of m outs c main_v17 (by decide))
  have e1 : V13 m outs c main_v17 = pad S100352x32 ![0, 0] ![352, 0] ![0, 0] (V12 m outs c main_v16 : S100000x32.Idx → EReal) (sitofp (F := Ideal) .bf16 (V12 m outs c main_c_3 : S_.Idx → BitVec 32)) pads_S100000x32_S100352x32_03520_000 h_S_ := by
    show StableHlo.after hostOps2_1 _ (Proc.devRef .tc main_v17) = _
    after_results
    rfl
  have e2 : V12 m outs c main_v16 = extractStridedSlice S100000x32 ![0, 0] (V11 m outs c main_v14 : S100352x32.Idx → EReal) slices_S100352x32_S100000x32_0_0 := by
    show StableHlo.after hostOps2 _ (Proc.devRef .tc main_v16) = _
    after_results
    rfl
  have e3 : V12 m outs c main_c_3 = constantI S_ 32 0#32 := by
    show StableHlo.after hostOps2 _ (Proc.devRef .tc main_c_3) = _
    after_results
  rw [e0, e1, e2, e3, crop_eq]
  exact rows_eq _ _ _

theorem V20_v19 : (V20 m outs c main_v19 : Cert.Spec.SEr.Idx → BitVec 32) = Cert.Spec.padRowI 0 (m ((c : Thread nD τ).loc main_arg1)) := by
  have e0 : V20 m outs c main_v19 = V16 m outs c main_v19 := (V20_of m outs c main_v19 (by decide)).trans <| (V19_of m outs c main_v19 (by decide)).trans <| (V18_of m outs c main_v19 (by decide)).trans <| (V17_of m outs c main_v19 (by decide))
  have e1 : V16 m outs c main_v19 = shapeCast S1x2500608 (V15 m outs c main_v18 : S2500608.Idx → BitVec 32) shapeCasts_S2500608_S1x2500608 := by
    show StableHlo.after hostOps2_4 _ (Proc.devRef .tc main_v19) = _
    after_results
    rfl
  have e2 : V15 m outs c main_v18 = pad S2500608 ![0] ![608] ![0] (V14 m outs c main_v1 : S2500000.Idx → BitVec 32) (V14 m outs c main_c_4 : S_.Idx → BitVec 32) pads_S2500000_S2500608_06080 h_S_ := by
    show StableHlo.after hostOps2_3 _ (Proc.devRef .tc main_v18) = _
    after_results
    rfl
  have e3 : V14 m outs c main_c_4 = constantI S_ 32 0#32 := by
    show StableHlo.after hostOps2_2 _ (Proc.devRef .tc main_c_4) = _
    after_results
  have e4 : V14 m outs c main_v1 = V1 m c main_v1 := (V14_of m outs c main_v1 (by decide)).trans <| (V13_of m outs c main_v1 (by decide)).trans <| (V12_of m outs c main_v1 (by decide)).trans <| (V11_of m outs c main_v1 (by decide)).trans <| (V10_of m outs c main_v1 (by decide)).trans <| (V9_of m c main_v1 (by decide)).trans <| (V8_of m c main_v1 (by decide)).trans <| (V7_of m c main_v1 (by decide)).trans <| (V6_of m c main_v1 (by decide)).trans <| (V5_of m c main_v1 (by decide)).trans <| (V4_of m c main_v1 (by decide)).trans <| (V3_of m c main_v1 (by decide)).trans <| (V2_of m c main_v1 (by decide))
  rw [e0, e1, e2, e3, e4, V1_v1]
  exact rowI_eq 0 0 rfl _ _ _ _ _ _

theorem V20_v21 : (V20 m outs c main_v21 : Cert.Spec.SEr.Idx → BitVec 32) = Cert.Spec.padRowI 1 (m ((c : Thread nD τ).loc main_arg1)) := by
  have e0 : V20 m outs c main_v21 = V18 m outs c main_v21 := (V20_of m outs c main_v21 (by decide)).trans <| (V19_of m outs c main_v21 (by decide))
  have e1 : V18 m outs c main_v21 = shapeCast S1x2500608 (V17 m outs c main_v20 : S2500608.Idx → BitVec 32) shapeCasts_S2500608_S1x2500608 := by
    show StableHlo.after hostOps2_6 _ (Proc.devRef .tc main_v21) = _
    after_results
    rfl
  have e2 : V17 m outs c main_v20 = pad S2500608 ![0] ![608] ![0] (V16 m outs c main_v3 : S2500000.Idx → BitVec 32) (V16 m outs c main_c_5 : S_.Idx → BitVec 32) pads_S2500000_S2500608_06080 h_S_ := by
    show StableHlo.after hostOps2_5 _ (Proc.devRef .tc main_v20) = _
    after_results
    rfl
  have e3 : V16 m outs c main_c_5 = constantI S_ 32 0#32 := by
    show StableHlo.after hostOps2_4 _ (Proc.devRef .tc main_c_5) = _
    after_results
  have e4 : V16 m outs c main_v3 = V1 m c main_v3 := (V16_of m outs c main_v3 (by decide)).trans <| (V15_of m outs c main_v3 (by decide)).trans <| (V14_of m outs c main_v3 (by decide)).trans <| (V13_of m outs c main_v3 (by decide)).trans <| (V12_of m outs c main_v3 (by decide)).trans <| (V11_of m outs c main_v3 (by decide)).trans <| (V10_of m outs c main_v3 (by decide)).trans <| (V9_of m c main_v3 (by decide)).trans <| (V8_of m c main_v3 (by decide)).trans <| (V7_of m c main_v3 (by decide)).trans <| (V6_of m c main_v3 (by decide)).trans <| (V5_of m c main_v3 (by decide)).trans <| (V4_of m c main_v3 (by decide)).trans <| (V3_of m c main_v3 (by decide)).trans <| (V2_of m c main_v3 (by decide))
  rw [e0, e1, e2, e3, e4, V1_v3]
  exact rowI_eq 1 1 rfl _ _ _ _ _ _

theorem V20_v24 : (V20 m outs c main_v24 : Cert.Spec.SEr.Idx → EReal) = Cert.Spec.padRowF (m ((c : Thread nD τ).loc main_arg2)) := by
  have e1 : V20 m outs c main_v24 = shapeCast S1x2500608 (V19 m outs c main_v22 : S2500608.Idx → EReal) shapeCasts_S2500608_S1x2500608 := by
    show StableHlo.after hostOps2_8 _ (Proc.devRef .tc main_v24) = _
    after_results
    rfl
  have e2 : V19 m outs c main_v22 = pad S2500608 ![0] ![608] ![0] (V18 m outs c main_arg2 : S2500000.Idx → EReal) (sitofp (F := Ideal) .f32 (V18 m outs c main_c_6 : S_.Idx → BitVec 32)) pads_S2500000_S2500608_06080 h_S_ := by
    show StableHlo.after hostOps2_7 _ (Proc.devRef .tc main_v22) = _
    after_results
    rfl
  have e3 : V18 m outs c main_c_6 = constantI S_ 32 0#32 := by
    show StableHlo.after hostOps2_6 _ (Proc.devRef .tc main_c_6) = _
    after_results
  have e4 : V18 m outs c main_arg2 = m ((c : Thread nD τ).loc main_arg2) := (V18_of m outs c main_arg2 (by decide)).trans <| (V17_of m outs c main_arg2 (by decide)).trans <| (V16_of m outs c main_arg2 (by decide)).trans <| (V15_of m outs c main_arg2 (by decide)).trans <| (V14_of m outs c main_arg2 (by decide)).trans <| (V13_of m outs c main_arg2 (by decide)).trans <| (V12_of m outs c main_arg2 (by decide)).trans <| (V11_of m outs c main_arg2 (by decide)).trans <| (V10_of m outs c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
  rw [e1, e2, e3, e4]
  exact rowF_eq _ _ _ _

theorem V23_v27 : (V23 m outs c main_v27 : Cert.Spec.SN.Idx → EReal) = Cert.Spec.cropRows (V22 m outs c main_v26) := by
  have e1 : V23 m outs c main_v27 = extractStridedSlice S100000x32 ![0, 0] (V22 m outs c main_v26 : S100352x32.Idx → EReal) slices_S100352x32_S100000x32_0_0 := by
    show StableHlo.after hostOps4 _ (Proc.devRef .tc main_v27) = _
    after_results
  rw [e1, crop_eq]

end Cert.KernelIdeal.Reg

end
-- ==== Proof.KI.PayG.lean ====
import proofs.«430617_j5463198400657_1_alg».proof.Proof.Gen.KernelIdeal.Skeleton
import proofs.«430617_j5463198400657_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Reg

open Cert.KernelIdeal Cert.KernelIdeal.Gen Idealize.ShloMosaic Idealize.ShloMosaic.ValueIdx

theorem k0_pay1_apply (y : S2048x32.Idx) : k0_pay1 (F := Ideal) y = 0 := by
  unfold k0_pay1
  rw [shapeCast_self]
  exact Ideal.ofBits_zero_f32

theorem k0_pay3_apply (v30 : Vec Ideal S2048x32 .f32) (y : S2048x32.Idx) : k0_pay3 (F := Ideal) v30 y = v30 y := rfl

theorem nodeWord_g (a : Fin 49) (r : Fin 2048) :
    IntOp.addi (Scalar.muli (BitVec.ofNat 32 a.val) 2048#32) (BitVec.ofNat 32 r.val) = BitVec.ofNat 32 (a.val * 2048 + r.val) := by
  show BitVec.ofNat 32 a.val * BitVec.ofNat 32 2048 + BitVec.ofNat 32 r.val = _
  rw [BitVec.ofNat_add, BitVec.ofNat_mul]

theorem onehot_word_g (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h; simp [IntOp.cmpi]
  · have hb : (a == b) = false := by simpa using h
    simp [IntOp.cmpi, hb, h]

theorem broadcastTo_a1_ab_apply_g {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem nodeIds_g_apply (a : Fin 49) (hι : S2048x1.Iotas .tc 32 [0]) (hb : S2048x1.Broadcasts S2048x2048) (r p : Fin 2048) :
    broadcastTo S2048x2048 (addi (broadcast S2048x1 (Scalar.muli (BitVec.ofNat 32 a.val) 2048#32)) (iota .tc S2048x1 32 [0] hι)) hb
      (ix2 r p) = BitVec.ofNat 32 (a.val * 2048 + r.val) := by
  refine (broadcastTo_a1_ab_apply_g _ hb r p).trans ?_
  show IntOp.addi (Scalar.muli (BitVec.ofNat 32 a.val) 2048#32) (iota .tc S2048x1 32 [0] hι (ix2 r (0 : Fin 1))) = _
  rw [iota_single_apply]
  exact nodeWord_g a r

theorem mask_g_apply (a : Fin 49) (e : IVec S1x2048 32) (hι : S2048x1.Iotas .tc 32 [0]) (hb : S2048x1.Broadcasts S2048x2048)
    (hb' : S1x2048.Broadcasts S2048x2048) (h1 : 1 < 32) (h2 : FTy.bits .bf16 < FTy.bits .f32) (r p : Fin 2048) :
    (truncf .bf16 (sitofp (F := Ideal) .f32 (extui 32 (cmpi .eq
        (broadcastTo S2048x2048 (addi (broadcast S2048x1 (Scalar.muli (BitVec.ofNat 32 a.val) 2048#32)) (iota .tc S2048x1 32 [0] hι)) hb)
        (broadcastTo S2048x2048 e hb')) h1)) h2) (ix2 r p)
      = Cert.Spec.hit (a.val * 2048 + r.val) (e (ix2 0 p)) := by
  refine (onehot_word_g _ _).trans ?_
  rw [nodeIds_g_apply a hι hb r p, broadcastTo_1b_ab_apply e hb' r p]
  rfl

theorem lhs_g_0 (j : S2048x32.Idx) (k : dot_S2048x2048_S2048x32_S2048x32_0_0_1_1_n_n.contr.Idx) :
    (dot_S2048x2048_S2048x32_S2048x32_0_0_1_1_n_n.lhsIdx j k 0 : ℕ) = k ⟨0, by decide⟩ :=
  dot_S2048x2048_S2048x32_S2048x32_0_0_1_1_n_n.lhsIdx_val_of_single rfl j k
theorem lhs_g_1 (j : S2048x32.Idx) (k : dot_S2048x2048_S2048x32_S2048x32_0_0_1_1_n_n.contr.Idx) :
    (dot_S2048x2048_S2048x32_S2048x32_0_0_1_1_n_n.lhsIdx j k 1 : ℕ) = j 0 := by
  simp [DotDims.lhsIdx, dot_S2048x2048_S2048x32_S2048x32_0_0_1_1_n_n]; rfl
theorem rhs_g_0 (j : S2048x32.Idx) (k : dot_S2048x2048_S2048x32_S2048x32_0_0_1_1_n_n.contr.Idx) :
    (dot_S2048x2048_S2048x32_S2048x32_0_0_1_1_n_n.rhsIdx j k 0 : ℕ) = k ⟨0, by decide⟩ :=
  dot_S2048x2048_S2048x32_S2048x32_0_0_1_1_n_n.rhsIdx_val_of_single rfl j k
theorem rhs_g_1 (j : S2048x32.Idx) (k : dot_S2048x2048_S2048x32_S2048x32_0_0_1_1_n_n.contr.Idx) :
    (dot_S2048x2048_S2048x32_S2048x32_0_0_1_1_n_n.rhsIdx j k 1 : ℕ) = j 1 := by
  simp [DotDims.rhsIdx, dot_S2048x2048_S2048x32_S2048x32_0_0_1_1_n_n]; rfl

abbrev contrG : dot_S2048x2048_S2048x32_S2048x32_0_0_1_1_n_n.contr.Idx ≃ Fin 2048 :=
  contrEquiv1 dot_S2048x2048_S2048x32_S2048x32_0_0_1_1_n_n 2048 rfl rfl

theorem lhsIdx_g (p : Fin 2048) (q : Fin 32) (r : Fin 2048) :
    dot_S2048x2048_S2048x32_S2048x32_0_0_1_1_n_n.lhsIdx (ix2 p q) (contrG.symm r) = ix2 r p :=
  Shape.idx_ext₂ ((lhs_g_0 _ _).trans (contrEquiv1_symm_val _ _ _ _ r)) (lhs_g_1 _ _)

theorem rhsIdx_g (p : Fin 2048) (q : Fin 32) (r : Fin 2048) :
    dot_S2048x2048_S2048x32_S2048x32_0_0_1_1_n_n.rhsIdx (ix2 p q) (contrG.symm r) = ix2 r q :=
  Shape.idx_ext₂ ((rhs_g_0 _ _).trans (contrEquiv1_symm_val _ _ _ _ r)) (rhs_g_1 _ _)

theorem matmul_g_apply (A : FVec Ideal S2048x2048 .bf16) (B : FVec Ideal S2048x32 .bf16) (p : Fin 2048) (q : Fin 32) :
    matmul dot_S2048x2048_S2048x32_S2048x32_0_0_1_1_n_n none A B (constant (F := Ideal) S2048x32 .f32 0x00000000#32) (ix2 p q)
      = ∑ r : Fin 2048, A (ix2 r p) * B (ix2 r q) := by
  refine (Ideal.matmul_constant_zero_apply _ none A B (ix2 p q)).trans ?_
  rw [← Equiv.sum_comp contrG.symm]
  exact Finset.sum_congr rfl fun r _ => by rw [lhsIdx_g, rhsIdx_g]

theorem k0_pay2_apply (i : grid0.Coords) (v7 : Vec Ideal S1x2048 .i32) (v15 : Vec Ideal S1x2048 .bf16) (v19 : Vec Ideal S2048x32 .bf16)
    (v22 : Vec Ideal S2048x32 .f32) (p : Fin 2048) (q : Fin 32) :
    k0_pay2 i v7 v15 v19 v22 (ix2 p q)
      = v22 (ix2 p q) + ∑ r : Fin 2048, (Cert.Spec.hit ((i 1).val * 2048 + r.val) (v7 (ix2 0 p)) * v15 (ix2 0 p)) * v19 (ix2 r q) := by
  unfold k0_pay2
  simp only [shapeCast_self]
  refine (addf_apply _ _ _).trans ?_
  refine congrArg (v22 (ix2 p q) + ·) ?_
  refine (matmul_g_apply _ _ p q).trans ?_
  refine Finset.sum_congr rfl fun r _ => ?_
  refine congrArg (· * v19 (ix2 r q)) ?_
  refine (mulf_apply _ _ _).trans ?_
  rw [mask_g_apply (i 1) v7 _ _ _ _ _ r p, broadcastTo_1b_ab_apply v15 _ r p]

end Cert.KernelIdeal.Reg

end
-- ==== Proof.FoldMath.lean ====
import proofs.«430617_j5463198400657_1_alg».proof.Proof.Spec
import Idealize.ShloMosaic.Lib.ValueIdx
import Mathlib.Algebra.BigOperators.Fin
import Mathlib.Data.Fintype.BigOperators
import Mathlib.Logic.Equiv.Fin.Basic
import Mathlib.Data.EReal.Basic

noncomputable section

open scoped BigOperators

namespace Cert.Spec

open Idealize.ShloMosaic Idealize.ShloMosaic.ValueIdx

-- A running sum restarted every `P` steps holds, after a step, the terms since the last restart.
theorem acc_closed {ι : Type} (P : ℕ) (hP : 0 < P) (acc f : ℕ → ι → EReal)
    (hreset : ∀ t, t % P = 0 → acc t = fun y => 0 + f t y)
    (hstep : ∀ t, t % P ≠ 0 → acc t = fun y => acc (t - 1) y + f t y) :
    ∀ b k, k < P → acc (b * P + k) = fun y => ∑ j ∈ Finset.range (k + 1), f (b * P + j) y := by
  intro b k
  induction k with
  | zero =>
    intro _
    rw [hreset (b * P + 0) (by rw [Nat.add_zero, Nat.mul_mod_left])]
    funext y
    rw [Finset.sum_range_one, zero_add]
  | succ k ih =>
    intro hk
    have hne : (b * P + (k + 1)) % P ≠ 0 := by
      rw [Nat.add_comm, Nat.add_mul_mod_self_right, Nat.mod_eq_of_lt hk]
      exact Nat.succ_ne_zero k
    have hprev : acc (b * P + k) = fun y => ∑ j ∈ Finset.range (k + 1), f (b * P + j) y :=
      ih (Nat.lt_of_succ_lt hk)
    rw [hstep _ hne]
    funext y
    show acc (b * P + (k + 1) - 1) y + f (b * P + (k + 1)) y = ∑ j ∈ Finset.range (k + 1 + 1), f (b * P + j) y
    rw [show b * P + (k + 1) - 1 = b * P + k from rfl, hprev, Finset.sum_range_succ _ (k + 1)]

theorem acc_closed_lt {ι : Type} (P N : ℕ) (acc : (t : ℕ) → t < N → ι → EReal) (f : ℕ → ι → EReal)
    (hreset : ∀ (t : ℕ) (h : t < N), t % P = 0 → acc t h = fun y => 0 + f t y)
    (hstep : ∀ (t : ℕ) (h : t < N), t % P ≠ 0 →
      acc t h = fun y => acc (t - 1) (Nat.lt_of_le_of_lt (Nat.sub_le _ _) h) y + f t y) :
    ∀ (b k : ℕ) (h : b * P + k < N), k < P →
      acc (b * P + k) h = fun y => ∑ j ∈ Finset.range (k + 1), f (b * P + j) y := by
  intro b k
  induction k with
  | zero =>
    intro h _
    rw [hreset (b * P + 0) h (by rw [Nat.add_zero, Nat.mul_mod_left])]
    funext y
    rw [Finset.sum_range_one, zero_add]
  | succ k ih =>
    intro h hk
    have hne : (b * P + (k + 1)) % P ≠ 0 := by
      rw [Nat.add_comm, Nat.add_mul_mod_self_right, Nat.mod_eq_of_lt hk]
      exact Nat.succ_ne_zero k
    have hprev : acc (b * P + k) (Nat.lt_of_succ_lt h) = fun y => ∑ j ∈ Finset.range (k + 1), f (b * P + j) y :=
      ih (Nat.lt_of_succ_lt h) (Nat.lt_of_succ_lt hk)
    rw [hstep _ h hne]
    funext y
    show acc (b * P + k) (Nat.lt_of_succ_lt h) y + f (b * P + (k + 1)) y = ∑ j ∈ Finset.range (k + 1 + 1), f (b * P + j) y
    rw [hprev, Finset.sum_range_succ _ (k + 1)]

-- A sum over `A · B` terms is the sum over `A` blocks of the sums over each block's `B` terms.
theorem sum_blocks (A B : ℕ) (g : ℕ → EReal) :
    (∑ a : Fin A, ∑ r : Fin B, g (a.val * B + r.val)) = ∑ n : Fin (A * B), g n.val := by
  rw [← Equiv.sum_comp finProdFinEquiv (fun n : Fin (A * B) => g n.val), Fintype.sum_prod_type]
  refine Finset.sum_congr rfl (fun a _ => Finset.sum_congr rfl (fun r _ => ?_))
  show g (a.val * B + r.val) = g (r.val + B * a.val)
  rw [Nat.mul_comm, Nat.add_comm]

theorem sum_range_blocks (A B : ℕ) (g : ℕ → EReal) :
    (∑ a ∈ Finset.range A, ∑ r : Fin B, g (a * B + r.val)) = ∑ n : Fin (A * B), g n.val := by
  rw [Finset.sum_range (fun a => ∑ r : Fin B, g (a * B + r.val))]
  exact sum_blocks A B g

theorem sum_range_blocks_fin (A B N : ℕ) (hN : A * B = N) (F : Fin N → EReal) (G : ℕ → Fin B → EReal)
    (hG : ∀ (a : ℕ) (r : Fin B) (h : a * B + r.val < N), G a r = F ⟨a * B + r.val, h⟩) :
    (∑ a ∈ Finset.range A, ∑ r : Fin B, G a r) = ∑ n : Fin N, F n := by
  subst hN
  have hlt : ∀ a, a < A → ∀ r : Fin B, a * B + r.val < A * B := fun a ha r =>
    Nat.lt_of_lt_of_le (Nat.add_lt_add_left r.isLt _)
      (by rw [← Nat.succ_mul]; exact Nat.mul_le_mul_right B (Nat.succ_le_of_lt ha))
  have h1 : (∑ a ∈ Finset.range A, ∑ r : Fin B, G a r)
      = ∑ a ∈ Finset.range A, ∑ r : Fin B,
          (fun n : ℕ => if h : n < A * B then F ⟨n, h⟩ else 0) (a * B + r.val) :=
    Finset.sum_congr rfl (fun a ha => Finset.sum_congr rfl (fun r _ => by
      have h := hlt a (Finset.mem_range.1 ha) r
      show G a r = if h : a * B + r.val < A * B then F ⟨a * B + r.val, h⟩ else 0
      rw [dif_pos h, hG a r h]))
  rw [h1, sum_range_blocks A B (fun n : ℕ => if h : n < A * B then F ⟨n, h⟩ else 0)]
  refine Finset.sum_congr rfl (fun n _ => ?_)
  show (if h : n.val < A * B then F ⟨n.val, h⟩ else 0) = F n
  rw [dif_pos n.isLt]

theorem gatherG_blocks (xp : SNp.Idx → EReal) (sr : SEr.Idx → BitVec 32) (wr : SEr.Idx → EReal)
    (e : Fin 2500608) (q : Fin 32) (G : ℕ → Fin 2048 → EReal)
    (hG : ∀ (nb : ℕ) (r : Fin 2048) (h : nb * 2048 + r.val < 100352),
      G nb r = (hit (nb * 2048 + r.val) (sr (ix2 0 e)) * wr (ix2 0 e)) * xp (ix2 ⟨nb * 2048 + r.val, h⟩ q)) :
    (∑ nb ∈ Finset.range 49, ∑ r : Fin 2048, G nb r) = gatherG xp sr wr (ix2 e q) := by
  show _ = ∑ n : Fin 100352, (hit n.val (sr (ix2 0 e)) * wr (ix2 0 e)) * xp (ix2 n q)
  exact sum_range_blocks_fin 49 2048 100352 (by norm_num)
    (fun n : Fin 100352 => (hit n.val (sr (ix2 0 e)) * wr (ix2 0 e)) * xp (ix2 n q)) G hG

theorem scatterG_blocks (msg : SEp.Idx → EReal) (dr : SEr.Idx → BitVec 32)
    (n : Fin 100352) (q : Fin 32) (G : ℕ → Fin 2048 → EReal)
    (hG : ∀ (eb : ℕ) (r : Fin 2048) (h : eb * 2048 + r.val < 2500608),
      G eb r = hit n.val (dr (ix2 0 (⟨eb * 2048 + r.val, h⟩ : Fin 2500608)))
        * msg (ix2 (⟨eb * 2048 + r.val, h⟩ : Fin 2500608) q)) :
    (∑ eb ∈ Finset.range 1221, ∑ r : Fin 2048, G eb r) = scatterG msg dr (ix2 n q) := by
  show _ = ∑ e : Fin 2500608, hit n.val (dr (ix2 0 e)) * msg (ix2 e q)
  exact sum_range_blocks_fin 1221 2048 2500608 (by norm_num)
    (fun e : Fin 2500608 => hit n.val (dr (ix2 0 e)) * msg (ix2 e q)) G hG

end Cert.Spec

end
-- ==== Proof.KI.Val0.lean ====
import proofs.«430617_j5463198400657_1_alg».proof.Proof.KI.G0b
import proofs.«430617_j5463198400657_1_alg».proof.Proof.KI.PayG
import proofs.«430617_j5463198400657_1_alg».proof.Proof.Spec
import proofs.«430617_j5463198400657_1_alg».proof.Proof.FoldMath
import Idealize.ShloMosaic.Lib.Pipeline.Value
import Idealize.ShloMosaic.Lib.ValueIdx

set_option maxRecDepth 16384

noncomputable section

open scoped BigOperators

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem valWord0 (n : ℕ) (h : n < 4294967296) : (BitVec.ofNat 32 n).toNat = n := by
  rw [BitVec.toNat_ofNat]; exact Nat.mod_eq_of_lt h

theorem valCoordEb0 (t : Fin cfg0.N) : ((grid0.coords t) 0).val = t.val / 49 := by
  have ht : t.val < 59829 := lt_of_lt_of_eq t.isLt N_0
  show t.val / grid0.stride 0 % grid0.bound 0 = t.val / 49
  rw [show grid0.stride 0 = 49 from by decide, show grid0.bound 0 = 1221 from rfl]
  exact Nat.mod_eq_of_lt (by omega)

theorem valCoordNb0 (t : Fin cfg0.N) : ((grid0.coords t) 1).val = t.val % 49 := by
  show t.val / grid0.stride 1 % grid0.bound 1 = t.val % 49
  rw [show grid0.stride 1 = 1 from by decide, show grid0.bound 1 = 49 from rfl, Nat.div_one]

theorem valIndex0_0 (t : Fin cfg0.N) : (cfg0.win 0).index t = ![t.val % 49, 0] := by
  show cc0_transform_0 (grid0.coords t) = _
  unfold cc0_transform_0; dsimp only
  rw [valCoordNb0, valWord0 (t.val % 49) (by omega)]
  rfl

theorem valIndex0_1 (t : Fin cfg0.N) : (cfg0.win 1).index t = ![0, t.val / 49] := by
  have ht : t.val < 59829 := lt_of_lt_of_eq t.isLt N_0
  show cc0_transform_1 (grid0.coords t) = _
  unfold cc0_transform_1; dsimp only
  rw [valCoordEb0, valWord0 (t.val / 49) (by omega)]
  rfl

theorem valIndex0_2 (t : Fin cfg0.N) : (cfg0.win 2).index t = ![0, t.val / 49] := by
  have ht : t.val < 59829 := lt_of_lt_of_eq t.isLt N_0
  show cc0_transform_2 (grid0.coords t) = _
  unfold cc0_transform_2; dsimp only
  rw [valCoordEb0, valWord0 (t.val / 49) (by omega)]
  rfl

theorem valIndex0_3 (t : Fin cfg0.N) : (cfg0.win 3).index t = ![t.val / 49, 0] := by
  have ht : t.val < 59829 := lt_of_lt_of_eq t.isLt N_0
  show cc0_transform_3 (grid0.coords t) = _
  unfold cc0_transform_3; dsimp only
  rw [valCoordEb0, valWord0 (t.val / 49) (by omega)]
  rfl

section AtIdeal
variable (V : (c : Dev nD) → (b : Ref sig .tc) → Buf (Elt Ideal) ((c : Thread nD τ).loc b))

abbrev valXp0 (c : Dev nD) : Cert.Spec.SNp.Idx → EReal := V c (Pipeline.arrRef spec0 0)
abbrev valSr0 (c : Dev nD) : Cert.Spec.SEr.Idx → BitVec 32 := V c (Pipeline.arrRef spec0 1)
abbrev valWr0 (c : Dev nD) : Cert.Spec.SEr.Idx → EReal := V c (Pipeline.arrRef spec0 2)

theorem valRead0_0 (c : Dev nD) (t : Fin cfg0.N) (y : S2048x32.Idx) (i : Cert.Spec.SNp.Idx)
    (h0 : (i 0).val = t.val % 49 * 2048 + (y 0).val) (h1 : (i 1).val = (y 1).val) :
    iblk0 V c 0 t y = valXp0 V c i := by
  show valXp0 V c (((cfg0.win 0).blk t).view.emb y) = valXp0 V c i
  refine congrArg _ (funext fun a => Fin.ext ?_)
  match a with
  | ⟨0, _⟩ =>
    show win0_0.index t 0 * 2048 + 1 * (y 0).val = (i 0).val
    rw [show win0_0.index t 0 = t.val % 49 from congrFun (valIndex0_0 t) 0, h0]; omega
  | ⟨1, _⟩ =>
    show win0_0.index t 1 * 32 + 1 * (y 1).val = (i 1).val
    rw [show win0_0.index t 1 = 0 from congrFun (valIndex0_0 t) 1, h1]; omega

theorem valRead0_1 (c : Dev nD) (t : Fin cfg0.N) (y : S1x2048.Idx) (i : Cert.Spec.SEr.Idx)
    (h0 : (i 0).val = (y 0).val) (h1 : (i 1).val = t.val / 49 * 2048 + (y 1).val) :
    iblk0 V c 1 t y = valSr0 V c i := by
  show valSr0 V c (((cfg0.win 1).blk t).view.emb y) = valSr0 V c i
  refine congrArg _ (funext fun a => Fin.ext ?_)
  match a with
  | ⟨0, _⟩ =>
    show win0_1.index t 0 * 1 + 1 * (y 0).val = (i 0).val
    rw [show win0_1.index t 0 = 0 from congrFun (valIndex0_1 t) 0, h0]; omega
  | ⟨1, _⟩ =>
    show win0_1.index t 1 * 2048 + 1 * (y 1).val = (i 1).val
    rw [show win0_1.index t 1 = t.val / 49 from congrFun (valIndex0_1 t) 1, h1]; omega

theorem valRead0_2 (c : Dev nD) (t : Fin cfg0.N) (y : S1x2048.Idx) (i : Cert.Spec.SEr.Idx)
    (h0 : (i 0).val = (y 0).val) (h1 : (i 1).val = t.val / 49 * 2048 + (y 1).val) :
    iblk0 V c 2 t y = valWr0 V c i := by
  show valWr0 V c (((cfg0.win 2).blk t).view.emb y) = valWr0 V c i
  refine congrArg _ (funext fun a => Fin.ext ?_)
  match a with
  | ⟨0, _⟩ =>
    show win0_2.index t 0 * 1 + 1 * (y 0).val = (i 0).val
    rw [show win0_2.index t 0 = 0 from congrFun (valIndex0_2 t) 0, h0]; omega
  | ⟨1, _⟩ =>
    show win0_2.index t 1 * 2048 + 1 * (y 1).val = (i 1).val
    rw [show win0_2.index t 1 = t.val / 49 from congrFun (valIndex0_2 t) 1, h1]; omega

end AtIdeal

theorem valFlush0 (t : Fin cfg0.N) : (cfg0.win 3).flush t = true ↔ t.val % 49 = 48 := by
  have hN : cfg0.grid.N = 59829 := N_0
  have ht : t.val < 59829 := lt_of_lt_of_eq t.isLt N_0
  unfold Window.flush
  rw [show (cfg0.win 3).isOut = true from rfl, Bool.true_and, Bool.or_eq_true, decide_eq_true_eq, decide_eq_true_eq]
  constructor
  · rintro (h | ⟨h, hne⟩)
    · omega
    · by_contra hc
      refine hne ?_
      rw [valIndex0_3, valIndex0_3]
      show ![(t.val + 1) / 49, 0] = ![t.val / 49, 0]
      rw [show (t.val + 1) / 49 = t.val / 49 from by omega]
  · intro h
    by_cases hl : t.val + 1 = cfg0.grid.N
    · exact Or.inl hl
    · refine Or.inr ⟨by omega, fun he => ?_⟩
      rw [valIndex0_3, valIndex0_3] at he
      have h0 : (t.val + 1) / 49 = t.val / 49 := congrFun he 0
      omega

theorem valMem0 (t : Fin cfg0.N) (i : S2500608x32.Idx) :
    i ∈ ((cfg0.win 3).blk t).view.set ↔ ∀ a : Fin 2, win0_3.index t a * S2048x32.size a ≤ (i a).val
      ∧ (i a).val < win0_3.index t a * S2048x32.size a + S2048x32.size a := by
  show i ∈ ((View.whole (Pipeline.arrRef spec0 3)).slice (win0_3.rect t)).set ↔ _
  rw [View.set_slice_whole, Rect.mem_set_unit]
  exact Iff.rfl

theorem valCover0 (i : S2500608x32.Idx) :
    ∃ t : Fin cfg0.N, (cfg0.win 3).flush t = true ∧ i ∈ ((cfg0.win 3).blk t).view.set := by
  have hi0 : (i 0).val < 2500608 := (i 0).isLt
  have hi1 : (i 1).val < 32 := (i 1).isLt
  have hN : cfg0.N = 59829 := N_0
  have hlt : (i 0).val / 2048 * 49 + 48 < cfg0.N := by rw [hN]; omega
  refine ⟨⟨(i 0).val / 2048 * 49 + 48, hlt⟩, (valFlush0 _).mpr (by show ((i 0).val / 2048 * 49 + 48) % 49 = 48; omega), ?_⟩
  rw [valMem0]
  intro a
  match a with
  | ⟨0, _⟩ =>
    show win0_3.index ⟨(i 0).val / 2048 * 49 + 48, hlt⟩ 0 * 2048 ≤ (i 0).val
      ∧ (i 0).val < win0_3.index ⟨(i 0).val / 2048 * 49 + 48, hlt⟩ 0 * 2048 + 2048
    rw [show win0_3.index ⟨(i 0).val / 2048 * 49 + 48, hlt⟩ 0 = ((i 0).val / 2048 * 49 + 48) / 49 from congrFun (valIndex0_3 _) 0]
    omega
  | ⟨1, _⟩ =>
    show win0_3.index ⟨(i 0).val / 2048 * 49 + 48, hlt⟩ 1 * 32 ≤ (i 1).val
      ∧ (i 1).val < win0_3.index ⟨(i 0).val / 2048 * 49 + 48, hlt⟩ 1 * 32 + 32
    rw [show win0_3.index ⟨(i 0).val / 2048 * 49 + 48, hlt⟩ 1 = 0 from congrFun (valIndex0_3 _) 1]
    omega

section AtIdeal
variable (V : (c : Dev nD) → (b : Ref sig .tc) → Buf (Elt Ideal) ((c : Thread nD τ).loc b))

def valEdge0 (n : ℕ) (p : Fin 2048) : Fin 2500608 :=
  ⟨n / 49 % 1221 * 2048 + p.val, by have := p.isLt; have := Nat.mod_lt (n / 49) (by decide : 0 < 1221); omega⟩
def valNode0 (n : ℕ) (r : Fin 2048) : Fin 100352 :=
  ⟨n % 49 * 2048 + r.val, by have := r.isLt; have := Nat.mod_lt n (by decide : 0 < 49); omega⟩

def valAdd0 (c : Dev nD) (n : ℕ) (y : S2048x32.Idx) : EReal :=
  ∑ r : Fin 2048, (Cert.Spec.hit (n % 49 * 2048 + r.val) (valSr0 V c (ix2 0 (valEdge0 n (y 0))))
    * valWr0 V c (ix2 0 (valEdge0 n (y 0)))) * valXp0 V c (ix2 (valNode0 n r) (y 1))

theorem valPay0 (c : Dev nD) (t : Fin cfg0.N) (v22 : Vec Ideal S2048x32 .f32) (y : S2048x32.Idx) :
    k0_pay2 (grid0.coords t) (iblk0 V c 1 t) (iblk0 V c 2 t) (iblk0 V c 0 t) v22 y = v22 y + valAdd0 V c t.val y := by
  have ht : t.val < 59829 := lt_of_lt_of_eq t.isLt N_0
  obtain ⟨p, q, rfl⟩ : ∃ p q, y = ix2 p q := ⟨y 0, y 1, eq_ix2 y⟩
  refine (k0_pay2_apply _ _ _ _ _ p q).trans ?_
  refine congrArg (v22 (ix2 p q) + ·) ?_
  unfold valAdd0
  refine Finset.sum_congr rfl fun r _ => ?_
  rw [valCoordNb0 t,
    valRead0_1 V c t (ix2 0 p) (ix2 0 (valEdge0 t.val p)) rfl
      (by show t.val / 49 % 1221 * 2048 + p.val = t.val / 49 * 2048 + p.val; omega),
    valRead0_2 V c t (ix2 0 p) (ix2 0 (valEdge0 t.val p)) rfl
      (by show t.val / 49 % 1221 * 2048 + p.val = t.val / 49 * 2048 + p.val; omega),
    valRead0_0 V c t (ix2 r q) (ix2 (valNode0 t.val r) q) rfl rfl]

theorem valAcc0 (c : Dev nD) (b k : ℕ) (h : b * 49 + k < cfg0.N) (hk : k < 49) :
    (outsAt0 V c (b * 49 + k) h).2 = fun y => ∑ j ∈ Finset.range (k + 1), valAdd0 V c (b * 49 + j) y :=
  Cert.Spec.acc_closed_lt (ι := S2048x32.Idx) 49 cfg0.N (fun t h => (outsAt0 V c t h).2) (valAdd0 V c)
    (fun t h h0 => by
      funext y
      refine (congrFun (acc0_reset V c ⟨t, h⟩ h0) y).trans ?_
      refine (valPay0 V c ⟨t, h⟩ (k0_pay1 (F := Ideal)) y).trans ?_
      rw [k0_pay1_apply])
    (fun t h h0 => funext fun y =>
      (congrFun (acc0_step V c ⟨t, h⟩ h0) y).trans (valPay0 V c ⟨t, h⟩ _ y))
    b k h hk

theorem valAt0_congr (c : Dev nD) {n m : ℕ} (e : n = m) (hn : n < cfg0.N) (hm : m < cfg0.N) :
    (outsAt0 V c n hn).2 = (outsAt0 V c m hm).2 := by subst e; rfl

abbrev valOut0 (c : Dev nD) : Cert.Spec.SEp.Idx → EReal := Cert.Spec.gatherG (valXp0 V c) (valSr0 V c) (valWr0 V c)

theorem valFlushedAt0 (c : Dev nD) (t : Fin cfg0.N) (h48 : t.val % 49 = 48) (y : S2048x32.Idx) (i : Cert.Spec.SEp.Idx)
    (h0 : (i 0).val = t.val / 49 * 2048 + (y 0).val) (h1 : (i 1).val = (y 1).val) :
    (outsAt0 V c t.val t.isLt).2 y = valOut0 V c i := by
  have ht : t.val < 59829 := lt_of_lt_of_eq t.isLt N_0
  have hb : t.val = t.val / 49 * 49 + 48 := by omega
  have hlt : t.val / 49 * 49 + 48 < cfg0.N := lt_of_eq_of_lt hb.symm t.isLt
  obtain ⟨p, q, rfl⟩ : ∃ p q, y = ix2 p q := ⟨y 0, y 1, eq_ix2 y⟩
  have hp : p.val < 2048 := p.isLt
  have he : t.val / 49 * 2048 + p.val < 2500608 := by omega
  have hi : i = ix2 (⟨t.val / 49 * 2048 + p.val, he⟩ : Fin 2500608) q :=
    funext fun a => match a with | ⟨0, _⟩ => Fin.ext h0 | ⟨1, _⟩ => Fin.ext h1
  rw [valAt0_congr V c hb t.isLt hlt, valAcc0 V c (t.val / 49) 48 hlt (by decide), hi]
  refine Eq.trans ?_ (Cert.Spec.gatherG_blocks (valXp0 V c) (valSr0 V c) (valWr0 V c) ⟨t.val / 49 * 2048 + p.val, he⟩ q
    (fun nb r => (Cert.Spec.hit (nb * 2048 + r.val) (valSr0 V c (ix2 0 (⟨t.val / 49 * 2048 + p.val, he⟩ : Fin 2500608)))
      * valWr0 V c (ix2 0 (⟨t.val / 49 * 2048 + p.val, he⟩ : Fin 2500608))) * valXp0 V c (ix2 (valNode0 nb r) q))
    (fun nb r h => by
      rw [show valNode0 nb r = ⟨nb * 2048 + r.val, h⟩ from
        Fin.ext (by show nb % 49 * 2048 + r.val = nb * 2048 + r.val; have := r.isLt; omega)]))
  refine Finset.sum_congr rfl fun j hj => ?_
  have hj' : j < 49 := Finset.mem_range.mp hj
  unfold valAdd0
  refine Finset.sum_congr rfl fun r _ => ?_
  have e1 : (t.val / 49 * 49 + j) % 49 = j := by omega
  have e2 : valEdge0 (t.val / 49 * 49 + j) p = ⟨t.val / 49 * 2048 + p.val, he⟩ :=
    Fin.ext (by show (t.val / 49 * 49 + j) / 49 % 1221 * 2048 + p.val = t.val / 49 * 2048 + p.val; omega)
  have e3 : valNode0 (t.val / 49 * 49 + j) r = valNode0 j r :=
    Fin.ext (by show (t.val / 49 * 49 + j) % 49 * 2048 + r.val = j % 49 * 2048 + r.val; omega)
  show (Cert.Spec.hit ((t.val / 49 * 49 + j) % 49 * 2048 + r.val) (valSr0 V c (ix2 0 (valEdge0 (t.val / 49 * 49 + j) p)))
      * valWr0 V c (ix2 0 (valEdge0 (t.val / 49 * 49 + j) p))) * valXp0 V c (ix2 (valNode0 (t.val / 49 * 49 + j) r) q) = _
  rw [e1, e2, e3]

theorem valRead0_3 (G : Cert.Spec.SEp.Idx → EReal) (t : Fin cfg0.N) (y : S2048x32.Idx) :
    ((cfg0.win 3).blk t).view.read (Elt Ideal) G y = G (((cfg0.win 3).blk t).view.emb y) := rfl

theorem valFlushed0 (c : Dev nD) (t : Fin cfg0.N) (hf : (cfg0.win 3).flush t = true) :
    (dat0 V c).flushed 3 t = ((cfg0.win 3).blk t).view.read (Elt Ideal) (valOut0 V c) := by
  have h48 : t.val % 49 = 48 := (valFlush0 t).mp hf
  show (cfg0.win 3).cut (grid0.coords t) ((dat0 V c).after 3 t) = _
  rw [after0_3, out0_flush V c t h48]
  funext y
  refine Eq.trans ?_ (valRead0_3 (valOut0 V c) t y).symm
  refine (k0_pay3_apply (outsAt0 V c t.val t.isLt).2 y).trans ?_
  refine valFlushedAt0 V c t h48 y (((cfg0.win 3).blk t).view.emb y) ?_ ?_
  · show win0_3.index t 0 * 2048 + 1 * (y 0).val = t.val / 49 * 2048 + (y 0).val
    rw [show win0_3.index t 0 = t.val / 49 from congrFun (valIndex0_3 t) 0]; omega
  · show win0_3.index t 1 * 32 + 1 * (y 1).val = (y 1).val
    rw [show win0_3.index t 1 = 0 from congrFun (valIndex0_3 t) 1]; omega

theorem arr0_eq (c : Dev nD) :
    ((dat0 (F := Ideal) V c).arrAt 3 cfg0.N : Cert.Spec.SEp.Idx → EReal)
      = Cert.Spec.gatherG (V c (Pipeline.arrRef spec0 0)) (V c (Pipeline.arrRef spec0 1)) (V c (Pipeline.arrRef spec0 2)) :=
  (dat0 V c).arrAt_eq_of_cover 3 (valOut0 V c) (valFlushed0 V c) valCover0

end AtIdeal

end Cert.KernelIdeal.Reg

end
-- ==== Proof.KI.PayS.lean ====
import proofs.«430617_j5463198400657_1_alg».proof.Proof.Gen.KernelIdeal.Skeleton
import proofs.«430617_j5463198400657_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Reg

open Cert.KernelIdeal Cert.KernelIdeal.Gen Idealize.ShloMosaic Idealize.ShloMosaic.ValueIdx

theorem k1_pay1_apply (y : S2048x32.Idx) : k1_pay1 (F := Ideal) y = 0 := by
  unfold k1_pay1
  rw [shapeCast_self]
  exact Ideal.ofBits_zero_f32

theorem nodeWord_s (a : Fin 49) (p : Fin 2048) :
    IntOp.addi (Scalar.muli (BitVec.ofNat 32 a.val) 2048#32) (BitVec.ofNat 32 p.val) = BitVec.ofNat 32 (a.val * 2048 + p.val) := by
  show BitVec.ofNat 32 a.val * BitVec.ofNat 32 2048 + BitVec.ofNat 32 p.val = _
  rw [BitVec.ofNat_add, BitVec.ofNat_mul]

theorem onehot_word_s (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h; simp [IntOp.cmpi]
  · have hb : (a == b) = false := by simpa using h
    simp [IntOp.cmpi, hb, h]

theorem broadcastTo_a1_ab_apply_s {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem nodeIds_s_apply (a : Fin 49) (hι : S2048x1.Iotas .tc 32 [0]) (hb : S2048x1.Broadcasts S2048x2048) (p r : Fin 2048) :
    broadcastTo S2048x2048 (addi (broadcast S2048x1 (Scalar.muli (BitVec.ofNat 32 a.val) 2048#32)) (iota .tc S2048x1 32 [0] hι)) hb
      (ix2 p r) = BitVec.ofNat 32 (a.val * 2048 + p.val) := by
  refine (broadcastTo_a1_ab_apply_s _ hb p r).trans ?_
  show IntOp.addi (Scalar.muli (BitVec.ofNat 32 a.val) 2048#32) (iota .tc S2048x1 32 [0] hι (ix2 p (0 : Fin 1))) = _
  rw [iota_single_apply]
  exact nodeWord_s a p

theorem mask_s_apply (a : Fin 49) (e : IVec S1x2048 32) (hι : S2048x1.Iotas .tc 32 [0]) (hb : S2048x1.Broadcasts S2048x2048)
    (hb' : S1x2048.Broadcasts S2048x2048) (h1 : 1 < 32) (h2 : FTy.bits .bf16 < FTy.bits .f32) (p r : Fin 2048) :
    (truncf .bf16 (sitofp (F := Ideal) .f32 (extui 32 (cmpi .eq
        (broadcastTo S2048x2048 (addi (broadcast S2048x1 (Scalar.muli (BitVec.ofNat 32 a.val) 2048#32)) (iota .tc S2048x1 32 [0] hι)) hb)
        (broadcastTo S2048x2048 e hb')) h1)) h2) (ix2 p r)
      = Cert.Spec.hit (a.val * 2048 + p.val) (e (ix2 0 r)) := by
  refine (onehot_word_s _ _).trans ?_
  rw [nodeIds_s_apply a hι hb p r, broadcastTo_1b_ab_apply e hb' p r]
  rfl

theorem lhs_s_0 (j : S2048x32.Idx) (k : dot_S2048x2048_S2048x32_S2048x32_1_0_0_1_n_n.contr.Idx) :
    (dot_S2048x2048_S2048x32_S2048x32_1_0_0_1_n_n.lhsIdx j k 0 : ℕ) = j 0 := by
  simp [DotDims.lhsIdx, dot_S2048x2048_S2048x32_S2048x32_1_0_0_1_n_n]; rfl
theorem lhs_s_1 (j : S2048x32.Idx) (k : dot_S2048x2048_S2048x32_S2048x32_1_0_0_1_n_n.contr.Idx) :
    (dot_S2048x2048_S2048x32_S2048x32_1_0_0_1_n_n.lhsIdx j k 1 : ℕ) = k ⟨0, by decide⟩ :=
  dot_S2048x2048_S2048x32_S2048x32_1_0_0_1_n_n.lhsIdx_val_of_single rfl j k
theorem rhs_s_0 (j : S2048x32.Idx) (k : dot_S2048x2048_S2048x32_S2048x32_1_0_0_1_n_n.contr.Idx) :
    (dot_S2048x2048_S2048x32_S2048x32_1_0_0_1_n_n.rhsIdx j k 0 : ℕ) = k ⟨0, by decide⟩ :=
  dot_S2048x2048_S2048x32_S2048x32_1_0_0_1_n_n.rhsIdx_val_of_single rfl j k
theorem rhs_s_1 (j : S2048x32.Idx) (k : dot_S2048x2048_S2048x32_S2048x32_1_0_0_1_n_n.contr.Idx) :
    (dot_S2048x2048_S2048x32_S2048x32_1_0_0_1_n_n.rhsIdx j k 1 : ℕ) = j 1 := by
  simp [DotDims.rhsIdx, dot_S2048x2048_S2048x32_S2048x32_1_0_0_1_n_n]; rfl

abbrev contrS : dot_S2048x2048_S2048x32_S2048x32_1_0_0_1_n_n.contr.Idx ≃ Fin 2048 :=
  contrEquiv1 dot_S2048x2048_S2048x32_S2048x32_1_0_0_1_n_n 2048 rfl rfl

theorem lhsIdx_s (p : Fin 2048) (q : Fin 32) (r : Fin 2048) :
    dot_S2048x2048_S2048x32_S2048x32_1_0_0_1_n_n.lhsIdx (ix2 p q) (contrS.symm r) = ix2 p r :=
  Shape.idx_ext₂ (lhs_s_0 _ _) ((lhs_s_1 _ _).trans (contrEquiv1_symm_val _ _ _ _ r))

theorem rhsIdx_s (p : Fin 2048) (q : Fin 32) (r : Fin 2048) :
    dot_S2048x2048_S2048x32_S2048x32_1_0_0_1_n_n.rhsIdx (ix2 p q) (contrS.symm r) = ix2 r q :=
  Shape.idx_ext₂ ((rhs_s_0 _ _).trans (contrEquiv1_symm_val _ _ _ _ r)) (rhs_s_1 _ _)

theorem matmul_s_apply (A : FVec Ideal S2048x2048 .bf16) (B : FVec Ideal S2048x32 .bf16) (p : Fin 2048) (q : Fin 32) :
    matmul dot_S2048x2048_S2048x32_S2048x32_1_0_0_1_n_n none A B (constant (F := Ideal) S2048x32 .f32 0x00000000#32) (ix2 p q)
      = ∑ r : Fin 2048, A (ix2 p r) * B (ix2 r q) := by
  refine (Ideal.matmul_constant_zero_apply _ none A B (ix2 p q)).trans ?_
  rw [← Equiv.sum_comp contrS.symm]
  exact Finset.sum_congr rfl fun r _ => by rw [lhsIdx_s, rhsIdx_s]

theorem k1_pay2_apply (i : grid1.Coords) (v7 : Vec Ideal S1x2048 .i32) (v15 : Vec Ideal S2048x32 .bf16) (v18 : Vec Ideal S2048x32 .f32)
    (p : Fin 2048) (q : Fin 32) :
    k1_pay2 i v7 v15 v18 (ix2 p q)
      = v18 (ix2 p q) + ∑ r : Fin 2048, Cert.Spec.hit ((i 0).val * 2048 + p.val) (v7 (ix2 0 r)) * v15 (ix2 r q) := by
  unfold k1_pay2
  simp only [shapeCast_self]
  refine (addf_apply _ _ _).trans ?_
  refine congrArg (v18 (ix2 p q) + ·) ?_
  refine (matmul_s_apply _ _ p q).trans ?_
  refine Finset.sum_congr rfl fun r _ => ?_
  refine congrArg (· * v15 (ix2 r q)) ?_
  exact mask_s_apply (i 0) v7 _ _ _ _ _ p r

end Cert.KernelIdeal.Reg

end
-- ==== Proof.KI.Val1.lean ====
import proofs.«430617_j5463198400657_1_alg».proof.Proof.KI.S1
import proofs.«430617_j5463198400657_1_alg».proof.Proof.KI.PayS
import proofs.«430617_j5463198400657_1_alg».proof.Proof.Spec
import proofs.«430617_j5463198400657_1_alg».proof.Proof.FoldMath
import Idealize.ShloMosaic.Lib.Pipeline.Value
import Idealize.ShloMosaic.Lib.ValueIdx

set_option maxRecDepth 16384

noncomputable section

open scoped BigOperators

namespace Cert.KernelIdeal.Reg

open Cert.KernelIdeal Cert.KernelIdeal.Gen
open Idealize.ShloMosaic Idealize.ShloMosaic.TcCoe Idealize.ShloMosaic.ValueIdx
open Idealize.ShloMosaic.Pipeline (Dat Cfg Window)

theorem coord1_0 (t : Fin cfg1.N) : ((grid1.coords t) 0).val = t.val / 1221 := by
  have ht : t.val < 59829 := lt_of_lt_of_eq t.isLt N_1
  show t.val / grid1.stride 0 % grid1.bound 0 = t.val / 1221
  rw [show grid1.stride 0 = 1221 from by decide, show grid1.bound 0 = 49 from rfl]
  exact Nat.mod_eq_of_lt (by omega)

theorem index1_0 (t : Fin cfg1.N) : (cfg1.win 0).index t = ![t.val % 1221, 0] := by
  show cc1_transform_0 (grid1.coords t) = _
  unfold cc1_transform_0; dsimp only
  rw [coord1_1 t, BitVec.toNat_ofNat (t.val % 1221) 32, Nat.mod_eq_of_lt (by have := Nat.mod_lt t.val (by decide : 0 < 1221); omega)]
  rfl

theorem index1_1 (t : Fin cfg1.N) : (cfg1.win 1).index t = ![0, t.val % 1221] := by
  show cc1_transform_1 (grid1.coords t) = _
  unfold cc1_transform_1; dsimp only
  rw [coord1_1 t, BitVec.toNat_ofNat (t.val % 1221) 32, Nat.mod_eq_of_lt (by have := Nat.mod_lt t.val (by decide : 0 < 1221); omega)]
  rfl

section Region
variable (V : (c : Dev nD) → (b : Ref sig .tc) → Buf (Elt Ideal) ((c : Thread nD τ).loc b))

abbrev msgA1 (c : Dev nD) : Cert.Spec.SEp.Idx → EReal := V c (Pipeline.arrRef spec1 0)
abbrev dstA1 (c : Dev nD) : Cert.Spec.SEr.Idx → BitVec 32 := V c (Pipeline.arrRef spec1 1)

theorem iblk1_0_apply (c : Dev nD) (t : Fin cfg1.N) (r : Fin 2048) (q : Fin 32) :
    (iblk1 V c 0 t : S2048x32.Idx → EReal) (ix2 r q)
      = msgA1 V c (ix2 (⟨t.val % 1221 * 2048 + r.val, by
          have := Nat.mod_lt t.val (by decide : 0 < 1221); have := r.isLt; omega⟩ : Fin 2500608) q) := by
  show V c (Pipeline.arrRef spec1 0) (((cfg1.win 0).blk t).view.emb (ix2 r q)) = V c (Pipeline.arrRef spec1 0) _
  refine congrArg _ (funext fun a => Fin.ext ?_)
  match a with
  | ⟨0, _⟩ =>
    show win1_0.index t 0 * 2048 + 1 * r.val = t.val % 1221 * 2048 + r.val
    rw [show win1_0.index t 0 = t.val % 1221 from congrFun (index1_0 t) 0]; omega
  | ⟨1, _⟩ =>
    show win1_0.index t 1 * 32 + 1 * q.val = q.val
    rw [show win1_0.index t 1 = 0 from congrFun (index1_0 t) 1]; omega

theorem iblk1_1_apply (c : Dev nD) (t : Fin cfg1.N) (r : Fin 2048) :
    (iblk1 V c 1 t : S1x2048.Idx → BitVec 32) (ix2 0 r)
      = dstA1 V c (ix2 0 (⟨t.val % 1221 * 2048 + r.val, by
          have := Nat.mod_lt t.val (by decide : 0 < 1221); have := r.isLt; omega⟩ : Fin 2500608)) := by
  show V c (Pipeline.arrRef spec1 1) (((cfg1.win 1).blk t).view.emb (ix2 0 r)) = V c (Pipeline.arrRef spec1 1) _
  refine congrArg _ (funext fun a => Fin.ext ?_)
  match a with
  | ⟨0, _⟩ =>
    show win1_1.index t 0 * 1 + 1 * 0 = 0
    rw [show win1_1.index t 0 = 0 from congrFun (index1_1 t) 0]
  | ⟨1, _⟩ =>
    show win1_1.index t 1 * 2048 + 1 * r.val = t.val % 1221 * 2048 + r.val
    rw [show win1_1.index t 1 = t.val % 1221 from congrFun (index1_1 t) 1]; omega

abbrev edge1 (j : ℕ) (r : Fin 2048) : Fin 2500608 :=
  ⟨j % 1221 * 2048 + r.val, by have := Nat.mod_lt j (by decide : 0 < 1221); have := r.isLt; omega⟩

def add1 (c : Dev nD) (t : ℕ) : S2048x32.Idx → EReal := fun y =>
  ∑ r : Fin 2048, Cert.Spec.hit (t / 1221 * 2048 + (y 0).val) (dstA1 V c (ix2 0 (edge1 t r))) * msgA1 V c (ix2 (edge1 t r) (y 1))

theorem add1_apply (c : Dev nD) (t : ℕ) (p : Fin 2048) (q : Fin 32) :
    add1 V c t (ix2 p q)
      = ∑ r : Fin 2048, Cert.Spec.hit (t / 1221 * 2048 + p.val) (dstA1 V c (ix2 0 (edge1 t r))) * msgA1 V c (ix2 (edge1 t r) q) := rfl

theorem payAt1_apply (c : Dev nD) (t : Fin cfg1.N) (v18 : Vec Ideal S2048x32 .f32) (p : Fin 2048) (q : Fin 32) :
    k1_pay2 (grid1.coords t) (iblk1 V c 1 t) (iblk1 V c 0 t) v18 (ix2 p q) = v18 (ix2 p q) + add1 V c t.val (ix2 p q) := by
  refine (k1_pay2_apply (grid1.coords t) (iblk1 V c 1 t) (iblk1 V c 0 t) v18 p q).trans ?_
  refine congrArg (v18 (ix2 p q) + ·) ?_
  rw [add1_apply]
  refine Finset.sum_congr rfl fun r _ => ?_
  rw [coord1_0 t]
  exact congrArg₂ (· * ·) (congrArg (Cert.Spec.hit (t.val / 1221 * 2048 + p.val)) (iblk1_1_apply V c t r)) (iblk1_0_apply V c t r q)

theorem acc1_reset_eq (c : Dev nD) (t : ℕ) (h : t < cfg1.N) (h0 : t % 1221 = 0) :
    (outsAt1 V c t h).2 = fun y => 0 + add1 V c t y := by
  refine (acc1_reset V c ⟨t, h⟩ h0).trans ?_
  funext y
  obtain ⟨p, q, rfl⟩ : ∃ (p : Fin 2048) (q : Fin 32), y = ix2 p q := ⟨y 0, y 1, eq_ix2 y⟩
  refine (payAt1_apply V c ⟨t, h⟩ (k1_pay1 (F := Ideal)) p q).trans ?_
  rw [k1_pay1_apply]

theorem acc1_step_eq (c : Dev nD) (t : ℕ) (h : t < cfg1.N) (h0 : t % 1221 ≠ 0) :
    (outsAt1 V c t h).2 = fun y => (outsAt1 V c (t - 1) (Nat.lt_of_le_of_lt (Nat.sub_le _ _) h)).2 y + add1 V c t y := by
  refine (acc1_step V c ⟨t, h⟩ h0).trans ?_
  funext y
  obtain ⟨p, q, rfl⟩ : ∃ (p : Fin 2048) (q : Fin 32), y = ix2 p q := ⟨y 0, y 1, eq_ix2 y⟩
  exact payAt1_apply V c ⟨t, h⟩ _ p q

theorem acc1_closed (c : Dev nD) (b k : ℕ) (h : b * 1221 + k < cfg1.N) (hk : k < 1221) :
    (outsAt1 V c (b * 1221 + k) h).2 = fun y => ∑ j ∈ Finset.range (k + 1), add1 V c (b * 1221 + j) y :=
  Cert.Spec.acc_closed_lt 1221 cfg1.N (fun t h => (outsAt1 V c t h).2) (add1 V c)
    (acc1_reset_eq V c) (acc1_step_eq V c) b k h hk

abbrev G1 (c : Dev nD) : Cert.Spec.SNp.Idx → EReal := Cert.Spec.scatterG (msgA1 V c) (dstA1 V c)

theorem outsAt1_congr (c : Dev nD) {n n' : ℕ} (e : n = n') (h : n < cfg1.N) (h' : n' < cfg1.N) :
    outsAt1 V c n h = outsAt1 V c n' h' := by
  subst e; rfl

theorem emb1_2 (t : Fin cfg1.N) (p : Fin 2048) (q : Fin 32) :
    ((cfg1.win 2).blk t).view.emb (ix2 p q)
      = (ix2 (⟨t.val / 1221 * 2048 + p.val, by
          have ht : t.val < 59829 := lt_of_lt_of_eq t.isLt N_1; have := p.isLt; omega⟩ : Fin 100352) q : Cert.Spec.SNp.Idx) := by
  refine funext fun a => Fin.ext ?_
  match a with
  | ⟨0, _⟩ =>
    show win1_2.index t 0 * 2048 + 1 * p.val = t.val / 1221 * 2048 + p.val
    rw [show win1_2.index t 0 = t.val / 1221 from congrFun (index1_2 t) 0]; omega
  | ⟨1, _⟩ =>
    show win1_2.index t 1 * 32 + 1 * q.val = q.val
    rw [show win1_2.index t 1 = 0 from congrFun (index1_2 t) 1]; omega

theorem acc1_last (c : Dev nD) (t : Fin cfg1.N) (hl : t.val % 1221 = 1220) (p : Fin 2048) (q : Fin 32) :
    (outsAt1 V c t.val t.isLt).2 (ix2 p q)
      = G1 V c (ix2 (⟨t.val / 1221 * 2048 + p.val, by
          have ht : t.val < 59829 := lt_of_lt_of_eq t.isLt N_1; have := p.isLt; omega⟩ : Fin 100352) q) := by
  have ht : t.val < 59829 := lt_of_lt_of_eq t.isLt N_1
  have hN : cfg1.N = 59829 := N_1
  have e : t.val = t.val / 1221 * 1221 + 1220 := by omega
  have h' : t.val / 1221 * 1221 + 1220 < cfg1.N := lt_of_lt_of_eq (by omega : t.val / 1221 * 1221 + 1220 < 59829) hN.symm
  rw [outsAt1_congr V c e t.isLt h', acc1_closed V c (t.val / 1221) 1220 h' (by decide)]
  refine Cert.Spec.scatterG_blocks (msgA1 V c) (dstA1 V c) _ q
    (fun eb r => Cert.Spec.hit ((t.val / 1221 * 1221 + eb) / 1221 * 2048 + p.val) (dstA1 V c (ix2 0 (edge1 (t.val / 1221 * 1221 + eb) r)))
      * msgA1 V c (ix2 (edge1 (t.val / 1221 * 1221 + eb) r) q)) ?_
  intro eb r h
  have heb : eb < 1221 := by omega
  have e1 : (t.val / 1221 * 1221 + eb) / 1221 = t.val / 1221 := by omega
  have e2 : edge1 (t.val / 1221 * 1221 + eb) r = (⟨eb * 2048 + r.val, h⟩ : Fin 2500608) :=
    Fin.ext (by show (t.val / 1221 * 1221 + eb) % 1221 * 2048 + r.val = eb * 2048 + r.val; omega)
  show Cert.Spec.hit ((t.val / 1221 * 1221 + eb) / 1221 * 2048 + p.val) (dstA1 V c (ix2 0 (edge1 (t.val / 1221 * 1221 + eb) r)))
      * msgA1 V c (ix2 (edge1 (t.val / 1221 * 1221 + eb) r) q) = _
  rw [e1, e2]

theorem read_blk1_2 (t : Fin cfg1.N) (G : Cert.Spec.SNp.Idx → EReal) (p : Fin 2048) (q : Fin 32) :
    ((cfg1.win 2).blk t).view.read (Elt Ideal) G (ix2 p q) = G (((cfg1.win 2).blk t).view.emb (ix2 p q)) := rfl

theorem flushed1_eq (c : Dev nD) (t : Fin cfg1.N) (hf : (cfg1.win 2).flush t = true) :
    (dat1 V c).flushed 2 t = ((cfg1.win 2).blk t).view.read (Elt Ideal) (G1 V c) := by
  have hl : t.val % 1221 = 1220 := (flushAt1_2 t).mp hf
  show (cfg1.win 2).cut (grid1.coords t) ((dat1 V c).after 2 t) = _
  rw [after1_2, out1_flush V c t hl]
  funext y
  obtain ⟨p, q, rfl⟩ : ∃ (p : Fin 2048) (q : Fin 32), y = ix2 p q := ⟨y 0, y 1, eq_ix2 y⟩
  refine Eq.trans ?_ (read_blk1_2 t (G1 V c) p q).symm
  rw [emb1_2 t p q]
  exact acc1_last V c t hl p q

theorem mem_blk1 (t : Fin cfg1.N) (i : Cert.Spec.SNp.Idx) :
    i ∈ ((cfg1.win 2).blk t).view.set
      ↔ ∀ a : Fin 2, win1_2.index t a * S2048x32.size a ≤ (i a).val ∧ (i a).val < win1_2.index t a * S2048x32.size a + S2048x32.size a := by
  show i ∈ ((View.whole (Pipeline.arrRef spec1 2)).slice (win1_2.rect t)).set ↔ _
  rw [View.set_slice_whole, Rect.mem_set_unit]
  exact Iff.rfl

theorem cover1 (i : Cert.Spec.SNp.Idx) :
    ∃ t : Fin cfg1.N, (cfg1.win 2).flush t = true ∧ i ∈ ((cfg1.win 2).blk t).view.set := by
  have hi0 : (i 0).val < 100352 := (i 0).isLt
  have hi1 : (i 1).val < 32 := (i 1).isLt
  have hN : cfg1.N = 59829 := N_1
  have hlt : (i 0).val / 2048 * 1221 + 1220 < cfg1.N := lt_of_lt_of_eq (by omega : (i 0).val / 2048 * 1221 + 1220 < 59829) hN.symm
  refine ⟨⟨(i 0).val / 2048 * 1221 + 1220, hlt⟩, (flushAt1_2 _).mpr (by
    show ((i 0).val / 2048 * 1221 + 1220) % 1221 = 1220; omega), ?_⟩
  rw [mem_blk1]
  intro a
  match a with
  | ⟨0, _⟩ =>
    show win1_2.index ⟨(i 0).val / 2048 * 1221 + 1220, hlt⟩ 0 * 2048 ≤ (i 0).val
      ∧ (i 0).val < win1_2.index ⟨(i 0).val / 2048 * 1221 + 1220, hlt⟩ 0 * 2048 + 2048
    rw [show win1_2.index ⟨(i 0).val / 2048 * 1221 + 1220, hlt⟩ 0 = ((i 0).val / 2048 * 1221 + 1220) / 1221 from congrFun (index1_2 _) 0]
    omega
  | ⟨1, _⟩ =>
    show win1_2.index ⟨(i 0).val / 2048 * 1221 + 1220, hlt⟩ 1 * 32 ≤ (i 1).val
      ∧ (i 1).val < win1_2.index ⟨(i 0).val / 2048 * 1221 + 1220, hlt⟩ 1 * 32 + 32
    rw [show win1_2.index ⟨(i 0).val / 2048 * 1221 + 1220, hlt⟩ 1 = 0 from congrFun (index1_2 _) 1]
    omega

theorem arr1_eq (c : Dev nD) :
    ((dat1 (F := Ideal) V c).arrAt 2 cfg1.N : Cert.Spec.SNp.Idx → EReal)
      = Cert.Spec.scatterG (V c (Pipeline.arrRef spec1 0)) (V c (Pipeline.arrRef spec1 1)) :=
  (dat1 V c).arrAt_eq_of_cover 2 (G1 V c) (flushed1_eq V c) cover1

end Region

end Cert.KernelIdeal.Reg

end
-- ==== Proof.KI.Val2.lean ====
import proofs.«430617_j5463198400657_1_alg».proof.Proof.KI.G2b
import proofs.«430617_j5463198400657_1_alg».proof.Proof.KI.PayG
import proofs.«430617_j5463198400657_1_alg».proof.Proof.Spec
import proofs.«430617_j5463198400657_1_alg».proof.Proof.FoldMath
import Idealize.ShloMosaic.Lib.Pipeline.Value
import Idealize.ShloMosaic.Lib.ValueIdx

set_option maxRecDepth 16384

noncomputable section

open scoped BigOperators

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem valWord2 (n : ℕ) (h : n < 4294967296) : (BitVec.ofNat 32 n).toNat = n := by
  rw [BitVec.toNat_ofNat]; exact Nat.mod_eq_of_lt h

theorem valCoordEb2 (t : Fin cfg2.N) : ((grid2.coords t) 0).val = t.val / 49 := by
  have ht : t.val < 59829 := lt_of_lt_of_eq t.isLt N_2
  show t.val / grid2.stride 0 % grid2.bound 0 = t.val / 49
  rw [show grid2.stride 0 = 49 from by decide, show grid2.bound 0 = 1221 from rfl]
  exact Nat.mod_eq_of_lt (by omega)

theorem valCoordNb2 (t : Fin cfg2.N) : ((grid2.coords t) 1).val = t.val % 49 := by
  show t.val / grid2.stride 1 % grid2.bound 1 = t.val % 49
  rw [show grid2.stride 1 = 1 from by decide, show grid2.bound 1 = 49 from rfl, Nat.div_one]

theorem valIndex2_0 (t : Fin cfg2.N) : (cfg2.win 0).index t = ![t.val % 49, 0] := by
  show cc2_transform_0 (grid2.coords t) = _
  unfold cc2_transform_0; dsimp only
  rw [valCoordNb2, valWord2 (t.val % 49) (by omega)]
  rfl

theorem valIndex2_1 (t : Fin cfg2.N) : (cfg2.win 1).index t = ![0, t.val / 49] := by
  have ht : t.val < 59829 := lt_of_lt_of_eq t.isLt N_2
  show cc2_transform_1 (grid2.coords t) = _
  unfold cc2_transform_1; dsimp only
  rw [valCoordEb2, valWord2 (t.val / 49) (by omega)]
  rfl

theorem valIndex2_2 (t : Fin cfg2.N) : (cfg2.win 2).index t = ![0, t.val / 49] := by
  have ht : t.val < 59829 := lt_of_lt_of_eq t.isLt N_2
  show cc2_transform_2 (grid2.coords t) = _
  unfold cc2_transform_2; dsimp only
  rw [valCoordEb2, valWord2 (t.val / 49) (by omega)]
  rfl

theorem valIndex2_3 (t : Fin cfg2.N) : (cfg2.win 3).index t = ![t.val / 49, 0] := by
  have ht : t.val < 59829 := lt_of_lt_of_eq t.isLt N_2
  show cc2_transform_3 (grid2.coords t) = _
  unfold cc2_transform_3; dsimp only
  rw [valCoordEb2, valWord2 (t.val / 49) (by omega)]
  rfl

section AtIdeal
variable (V : (c : Dev nD) → (b : Ref sig .tc) → Buf (Elt Ideal) ((c : Thread nD τ).loc b))

abbrev valXp2 (c : Dev nD) : Cert.Spec.SNp.Idx → EReal := V c (Pipeline.arrRef spec2 0)
abbrev valSr2 (c : Dev nD) : Cert.Spec.SEr.Idx → BitVec 32 := V c (Pipeline.arrRef spec2 1)
abbrev valWr2 (c : Dev nD) : Cert.Spec.SEr.Idx → EReal := V c (Pipeline.arrRef spec2 2)

theorem valRead2_0 (c : Dev nD) (t : Fin cfg2.N) (y : S2048x32.Idx) (i : Cert.Spec.SNp.Idx)
    (h0 : (i 0).val = t.val % 49 * 2048 + (y 0).val) (h1 : (i 1).val = (y 1).val) :
    iblk2 V c 0 t y = valXp2 V c i := by
  show valXp2 V c (((cfg2.win 0).blk t).view.emb y) = valXp2 V c i
  refine congrArg _ (funext fun a => Fin.ext ?_)
  match a with
  | ⟨0, _⟩ =>
    show win2_0.index t 0 * 2048 + 1 * (y 0).val = (i 0).val
    rw [show win2_0.index t 0 = t.val % 49 from congrFun (valIndex2_0 t) 0, h0]; omega
  | ⟨1, _⟩ =>
    show win2_0.index t 1 * 32 + 1 * (y 1).val = (i 1).val
    rw [show win2_0.index t 1 = 0 from congrFun (valIndex2_0 t) 1, h1]; omega

theorem valRead2_1 (c : Dev nD) (t : Fin cfg2.N) (y : S1x2048.Idx) (i : Cert.Spec.SEr.Idx)
    (h0 : (i 0).val = (y 0).val) (h1 : (i 1).val = t.val / 49 * 2048 + (y 1).val) :
    iblk2 V c 1 t y = valSr2 V c i := by
  show valSr2 V c (((cfg2.win 1).blk t).view.emb y) = valSr2 V c i
  refine congrArg _ (funext fun a => Fin.ext ?_)
  match a with
  | ⟨0, _⟩ =>
    show win2_1.index t 0 * 1 + 1 * (y 0).val = (i 0).val
    rw [show win2_1.index t 0 = 0 from congrFun (valIndex2_1 t) 0, h0]; omega
  | ⟨1, _⟩ =>
    show win2_1.index t 1 * 2048 + 1 * (y 1).val = (i 1).val
    rw [show win2_1.index t 1 = t.val / 49 from congrFun (valIndex2_1 t) 1, h1]; omega

theorem valRead2_2 (c : Dev nD) (t : Fin cfg2.N) (y : S1x2048.Idx) (i : Cert.Spec.SEr.Idx)
    (h0 : (i 0).val = (y 0).val) (h1 : (i 1).val = t.val / 49 * 2048 + (y 1).val) :
    iblk2 V c 2 t y = valWr2 V c i := by
  show valWr2 V c (((cfg2.win 2).blk t).view.emb y) = valWr2 V c i
  refine congrArg _ (funext fun a => Fin.ext ?_)
  match a with
  | ⟨0, _⟩ =>
    show win2_2.index t 0 * 1 + 1 * (y 0).val = (i 0).val
    rw [show win2_2.index t 0 = 0 from congrFun (valIndex2_2 t) 0, h0]; omega
  | ⟨1, _⟩ =>
    show win2_2.index t 1 * 2048 + 1 * (y 1).val = (i 1).val
    rw [show win2_2.index t 1 = t.val / 49 from congrFun (valIndex2_2 t) 1, h1]; omega

end AtIdeal

theorem valFlush2 (t : Fin cfg2.N) : (cfg2.win 3).flush t = true ↔ t.val % 49 = 48 := by
  have hN : cfg2.grid.N = 59829 := N_2
  have ht : t.val < 59829 := lt_of_lt_of_eq t.isLt N_2
  unfold Window.flush
  rw [show (cfg2.win 3).isOut = true from rfl, Bool.true_and, Bool.or_eq_true, decide_eq_true_eq, decide_eq_true_eq]
  constructor
  · rintro (h | ⟨h, hne⟩)
    · omega
    · by_contra hc
      refine hne ?_
      rw [valIndex2_3, valIndex2_3]
      show ![(t.val + 1) / 49, 0] = ![t.val / 49, 0]
      rw [show (t.val + 1) / 49 = t.val / 49 from by omega]
  · intro h
    by_cases hl : t.val + 1 = cfg2.grid.N
    · exact Or.inl hl
    · refine Or.inr ⟨by omega, fun he => ?_⟩
      rw [valIndex2_3, valIndex2_3] at he
      have h0 : (t.val + 1) / 49 = t.val / 49 := congrFun he 0
      omega

theorem valMem2 (t : Fin cfg2.N) (i : S2500608x32.Idx) :
    i ∈ ((cfg2.win 3).blk t).view.set ↔ ∀ a : Fin 2, win2_3.index t a * S2048x32.size a ≤ (i a).val
      ∧ (i a).val < win2_3.index t a * S2048x32.size a + S2048x32.size a := by
  show i ∈ ((View.whole (Pipeline.arrRef spec2 3)).slice (win2_3.rect t)).set ↔ _
  rw [View.set_slice_whole, Rect.mem_set_unit]
  exact Iff.rfl

theorem valCover2 (i : S2500608x32.Idx) :
    ∃ t : Fin cfg2.N, (cfg2.win 3).flush t = true ∧ i ∈ ((cfg2.win 3).blk t).view.set := by
  have hi0 : (i 0).val < 2500608 := (i 0).isLt
  have hi1 : (i 1).val < 32 := (i 1).isLt
  have hN : cfg2.N = 59829 := N_2
  have hlt : (i 0).val / 2048 * 49 + 48 < cfg2.N := by rw [hN]; omega
  refine ⟨⟨(i 0).val / 2048 * 49 + 48, hlt⟩, (valFlush2 _).mpr (by show ((i 0).val / 2048 * 49 + 48) % 49 = 48; omega), ?_⟩
  rw [valMem2]
  intro a
  match a with
  | ⟨0, _⟩ =>
    show win2_3.index ⟨(i 0).val / 2048 * 49 + 48, hlt⟩ 0 * 2048 ≤ (i 0).val
      ∧ (i 0).val < win2_3.index ⟨(i 0).val / 2048 * 49 + 48, hlt⟩ 0 * 2048 + 2048
    rw [show win2_3.index ⟨(i 0).val / 2048 * 49 + 48, hlt⟩ 0 = ((i 0).val / 2048 * 49 + 48) / 49 from congrFun (valIndex2_3 _) 0]
    omega
  | ⟨1, _⟩ =>
    show win2_3.index ⟨(i 0).val / 2048 * 49 + 48, hlt⟩ 1 * 32 ≤ (i 1).val
      ∧ (i 1).val < win2_3.index ⟨(i 0).val / 2048 * 49 + 48, hlt⟩ 1 * 32 + 32
    rw [show win2_3.index ⟨(i 0).val / 2048 * 49 + 48, hlt⟩ 1 = 0 from congrFun (valIndex2_3 _) 1]
    omega

section AtIdeal
variable (V : (c : Dev nD) → (b : Ref sig .tc) → Buf (Elt Ideal) ((c : Thread nD τ).loc b))

def valEdge2 (n : ℕ) (p : Fin 2048) : Fin 2500608 :=
  ⟨n / 49 % 1221 * 2048 + p.val, by have := p.isLt; have := Nat.mod_lt (n / 49) (by decide : 0 < 1221); omega⟩
def valNode2 (n : ℕ) (r : Fin 2048) : Fin 100352 :=
  ⟨n % 49 * 2048 + r.val, by have := r.isLt; have := Nat.mod_lt n (by decide : 0 < 49); omega⟩

def valAdd2 (c : Dev nD) (n : ℕ) (y : S2048x32.Idx) : EReal :=
  ∑ r : Fin 2048, (Cert.Spec.hit (n % 49 * 2048 + r.val) (valSr2 V c (ix2 0 (valEdge2 n (y 0))))
    * valWr2 V c (ix2 0 (valEdge2 n (y 0)))) * valXp2 V c (ix2 (valNode2 n r) (y 1))

theorem valPay2 (c : Dev nD) (t : Fin cfg2.N) (v22 : Vec Ideal S2048x32 .f32) (y : S2048x32.Idx) :
    k0_pay2 (grid2.coords t) (iblk2 V c 1 t) (iblk2 V c 2 t) (iblk2 V c 0 t) v22 y = v22 y + valAdd2 V c t.val y := by
  have ht : t.val < 59829 := lt_of_lt_of_eq t.isLt N_2
  obtain ⟨p, q, rfl⟩ : ∃ p q, y = ix2 p q := ⟨y 0, y 1, eq_ix2 y⟩
  refine (k0_pay2_apply _ _ _ _ _ p q).trans ?_
  refine congrArg (v22 (ix2 p q) + ·) ?_
  unfold valAdd2
  refine Finset.sum_congr rfl fun r _ => ?_
  rw [valCoordNb2 t,
    valRead2_1 V c t (ix2 0 p) (ix2 0 (valEdge2 t.val p)) rfl
      (by show t.val / 49 % 1221 * 2048 + p.val = t.val / 49 * 2048 + p.val; omega),
    valRead2_2 V c t (ix2 0 p) (ix2 0 (valEdge2 t.val p)) rfl
      (by show t.val / 49 % 1221 * 2048 + p.val = t.val / 49 * 2048 + p.val; omega),
    valRead2_0 V c t (ix2 r q) (ix2 (valNode2 t.val r) q) rfl rfl]

theorem valAcc2 (c : Dev nD) (b k : ℕ) (h : b * 49 + k < cfg2.N) (hk : k < 49) :
    (outsAt2 V c (b * 49 + k) h).2 = fun y => ∑ j ∈ Finset.range (k + 1), valAdd2 V c (b * 49 + j) y :=
  Cert.Spec.acc_closed_lt (ι := S2048x32.Idx) 49 cfg2.N (fun t h => (outsAt2 V c t h).2) (valAdd2 V c)
    (fun t h h0 => by
      funext y
      refine (congrFun (acc2_reset V c ⟨t, h⟩ h0) y).trans ?_
      refine (valPay2 V c ⟨t, h⟩ (k0_pay1 (F := Ideal)) y).trans ?_
      rw [k0_pay1_apply])
    (fun t h h0 => funext fun y =>
      (congrFun (acc2_step V c ⟨t, h⟩ h0) y).trans (valPay2 V c ⟨t, h⟩ _ y))
    b k h hk

theorem valAt2_congr (c : Dev nD) {n m : ℕ} (e : n = m) (hn : n < cfg2.N) (hm : m < cfg2.N) :
    (outsAt2 V c n hn).2 = (outsAt2 V c m hm).2 := by subst e; rfl

abbrev valOut2 (c : Dev nD) : Cert.Spec.SEp.Idx → EReal := Cert.Spec.gatherG (valXp2 V c) (valSr2 V c) (valWr2 V c)

theorem valFlushedAt2 (c : Dev nD) (t : Fin cfg2.N) (h48 : t.val % 49 = 48) (y : S2048x32.Idx) (i : Cert.Spec.SEp.Idx)
    (h0 : (i 0).val = t.val / 49 * 2048 + (y 0).val) (h1 : (i 1).val = (y 1).val) :
    (outsAt2 V c t.val t.isLt).2 y = valOut2 V c i := by
  have ht : t.val < 59829 := lt_of_lt_of_eq t.isLt N_2
  have hb : t.val = t.val / 49 * 49 + 48 := by omega
  have hlt : t.val / 49 * 49 + 48 < cfg2.N := lt_of_eq_of_lt hb.symm t.isLt
  obtain ⟨p, q, rfl⟩ : ∃ p q, y = ix2 p q := ⟨y 0, y 1, eq_ix2 y⟩
  have hp : p.val < 2048 := p.isLt
  have he : t.val / 49 * 2048 + p.val < 2500608 := by omega
  have hi : i = ix2 (⟨t.val / 49 * 2048 + p.val, he⟩ : Fin 2500608) q :=
    funext fun a => match a with | ⟨0, _⟩ => Fin.ext h0 | ⟨1, _⟩ => Fin.ext h1
  rw [valAt2_congr V c hb t.isLt hlt, valAcc2 V c (t.val / 49) 48 hlt (by decide), hi]
  refine Eq.trans ?_ (Cert.Spec.gatherG_blocks (valXp2 V c) (valSr2 V c) (valWr2 V c) ⟨t.val / 49 * 2048 + p.val, he⟩ q
    (fun nb r => (Cert.Spec.hit (nb * 2048 + r.val) (valSr2 V c (ix2 0 (⟨t.val / 49 * 2048 + p.val, he⟩ : Fin 2500608)))
      * valWr2 V c (ix2 0 (⟨t.val / 49 * 2048 + p.val, he⟩ : Fin 2500608))) * valXp2 V c (ix2 (valNode2 nb r) q))
    (fun nb r h => by
      rw [show valNode2 nb r = ⟨nb * 2048 + r.val, h⟩ from
        Fin.ext (by show nb % 49 * 2048 + r.val = nb * 2048 + r.val; have := r.isLt; omega)]))
  refine Finset.sum_congr rfl fun j hj => ?_
  have hj' : j < 49 := Finset.mem_range.mp hj
  unfold valAdd2
  refine Finset.sum_congr rfl fun r _ => ?_
  have e1 : (t.val / 49 * 49 + j) % 49 = j := by omega
  have e2 : valEdge2 (t.val / 49 * 49 + j) p = ⟨t.val / 49 * 2048 + p.val, he⟩ :=
    Fin.ext (by show (t.val / 49 * 49 + j) / 49 % 1221 * 2048 + p.val = t.val / 49 * 2048 + p.val; omega)
  have e3 : valNode2 (t.val / 49 * 49 + j) r = valNode2 j r :=
    Fin.ext (by show (t.val / 49 * 49 + j) % 49 * 2048 + r.val = j % 49 * 2048 + r.val; omega)
  show (Cert.Spec.hit ((t.val / 49 * 49 + j) % 49 * 2048 + r.val) (valSr2 V c (ix2 0 (valEdge2 (t.val / 49 * 49 + j) p)))
      * valWr2 V c (ix2 0 (valEdge2 (t.val / 49 * 49 + j) p))) * valXp2 V c (ix2 (valNode2 (t.val / 49 * 49 + j) r) q) = _
  rw [e1, e2, e3]

theorem valRead2_3 (G : Cert.Spec.SEp.Idx → EReal) (t : Fin cfg2.N) (y : S2048x32.Idx) :
    ((cfg2.win 3).blk t).view.read (Elt Ideal) G y = G (((cfg2.win 3).blk t).view.emb y) := rfl

theorem valFlushed2 (c : Dev nD) (t : Fin cfg2.N) (hf : (cfg2.win 3).flush t = true) :
    (dat2 V c).flushed 3 t = ((cfg2.win 3).blk t).view.read (Elt Ideal) (valOut2 V c) := by
  have h48 : t.val % 49 = 48 := (valFlush2 t).mp hf
  show (cfg2.win 3).cut (grid2.coords t) ((dat2 V c).after 3 t) = _
  rw [after2_3, out2_flush V c t h48]
  funext y
  refine Eq.trans ?_ (valRead2_3 (valOut2 V c) t y).symm
  refine (k0_pay3_apply (outsAt2 V c t.val t.isLt).2 y).trans ?_
  refine valFlushedAt2 V c t h48 y (((cfg2.win 3).blk t).view.emb y) ?_ ?_
  · show win2_3.index t 0 * 2048 + 1 * (y 0).val = t.val / 49 * 2048 + (y 0).val
    rw [show win2_3.index t 0 = t.val / 49 from congrFun (valIndex2_3 t) 0]; omega
  · show win2_3.index t 1 * 32 + 1 * (y 1).val = (y 1).val
    rw [show win2_3.index t 1 = 0 from congrFun (valIndex2_3 t) 1]; omega

theorem arr2_eq (c : Dev nD) :
    ((dat2 (F := Ideal) V c).arrAt 3 cfg2.N : Cert.Spec.SEp.Idx → EReal)
      = Cert.Spec.gatherG (V c (Pipeline.arrRef spec2 0)) (V c (Pipeline.arrRef spec2 1)) (V c (Pipeline.arrRef spec2 2)) :=
  (dat2 V c).arrAt_eq_of_cover 3 (valOut2 V c) (valFlushed2 V c) valCover2

end AtIdeal

end Cert.KernelIdeal.Reg

end
-- ==== Proof.KI.Val3.lean ====
import proofs.«430617_j5463198400657_1_alg».proof.Proof.KI.S3
import proofs.«430617_j5463198400657_1_alg».proof.Proof.KI.PayS
import proofs.«430617_j5463198400657_1_alg».proof.Proof.Spec
import proofs.«430617_j5463198400657_1_alg».proof.Proof.FoldMath
import Idealize.ShloMosaic.Lib.Pipeline.Value
import Idealize.ShloMosaic.Lib.ValueIdx

set_option maxRecDepth 16384

noncomputable section

open scoped BigOperators

namespace Cert.KernelIdeal.Reg

open Cert.KernelIdeal Cert.KernelIdeal.Gen
open Idealize.ShloMosaic Idealize.ShloMosaic.TcCoe Idealize.ShloMosaic.ValueIdx
open Idealize.ShloMosaic.Pipeline (Dat Cfg Window)

theorem coord3_0 (t : Fin cfg3.N) : ((grid3.coords t) 0).val = t.val / 1221 := by
  have ht : t.val < 59829 := lt_of_lt_of_eq t.isLt N_3
  show t.val / grid3.stride 0 % grid3.bound 0 = t.val / 1221
  rw [show grid3.stride 0 = 1221 from by decide, show grid3.bound 0 = 49 from rfl]
  exact Nat.mod_eq_of_lt (by omega)

theorem index3_0 (t : Fin cfg3.N) : (cfg3.win 0).index t = ![t.val % 1221, 0] := by
  show cc3_transform_0 (grid3.coords t) = _
  unfold cc3_transform_0; dsimp only
  rw [show ((grid3.coords t) 1).val = t.val % 1221 from coord1_1 t, BitVec.toNat_ofNat (t.val % 1221) 32, Nat.mod_eq_of_lt (by have := Nat.mod_lt t.val (by decide : 0 < 1221); omega)]
  rfl

theorem index3_1 (t : Fin cfg3.N) : (cfg3.win 1).index t = ![0, t.val % 1221] := by
  show cc3_transform_1 (grid3.coords t) = _
  unfold cc3_transform_1; dsimp only
  rw [show ((grid3.coords t) 1).val = t.val % 1221 from coord1_1 t, BitVec.toNat_ofNat (t.val % 1221) 32, Nat.mod_eq_of_lt (by have := Nat.mod_lt t.val (by decide : 0 < 1221); omega)]
  rfl

section Region
variable (V : (c : Dev nD) → (b : Ref sig .tc) → Buf (Elt Ideal) ((c : Thread nD τ).loc b))

abbrev msgA3 (c : Dev nD) : Cert.Spec.SEp.Idx → EReal := V c (Pipeline.arrRef spec3 0)
abbrev dstA3 (c : Dev nD) : Cert.Spec.SEr.Idx → BitVec 32 := V c (Pipeline.arrRef spec3 1)

theorem iblk3_0_apply (c : Dev nD) (t : Fin cfg3.N) (r : Fin 2048) (q : Fin 32) :
    (iblk3 V c 0 t : S2048x32.Idx → EReal) (ix2 r q)
      = msgA3 V c (ix2 (⟨t.val % 1221 * 2048 + r.val, by
          have := Nat.mod_lt t.val (by decide : 0 < 1221); have := r.isLt; omega⟩ : Fin 2500608) q) := by
  show V c (Pipeline.arrRef spec3 0) (((cfg3.win 0).blk t).view.emb (ix2 r q)) = V c (Pipeline.arrRef spec3 0) _
  refine congrArg _ (funext fun a => Fin.ext ?_)
  match a with
  | ⟨0, _⟩ =>
    show win3_0.index t 0 * 2048 + 1 * r.val = t.val % 1221 * 2048 + r.val
    rw [show win3_0.index t 0 = t.val % 1221 from congrFun (index3_0 t) 0]; omega
  | ⟨1, _⟩ =>
    show win3_0.index t 1 * 32 + 1 * q.val = q.val
    rw [show win3_0.index t 1 = 0 from congrFun (index3_0 t) 1]; omega

theorem iblk3_1_apply (c : Dev nD) (t : Fin cfg3.N) (r : Fin 2048) :
    (iblk3 V c 1 t : S1x2048.Idx → BitVec 32) (ix2 0 r)
      = dstA3 V c (ix2 0 (⟨t.val % 1221 * 2048 + r.val, by
          have := Nat.mod_lt t.val (by decide : 0 < 1221); have := r.isLt; omega⟩ : Fin 2500608)) := by
  show V c (Pipeline.arrRef spec3 1) (((cfg3.win 1).blk t).view.emb (ix2 0 r)) = V c (Pipeline.arrRef spec3 1) _
  refine congrArg _ (funext fun a => Fin.ext ?_)
  match a with
  | ⟨0, _⟩ =>
    show win3_1.index t 0 * 1 + 1 * 0 = 0
    rw [show win3_1.index t 0 = 0 from congrFun (index3_1 t) 0]
  | ⟨1, _⟩ =>
    show win3_1.index t 1 * 2048 + 1 * r.val = t.val % 1221 * 2048 + r.val
    rw [show win3_1.index t 1 = t.val % 1221 from congrFun (index3_1 t) 1]; omega

abbrev edge3 (j : ℕ) (r : Fin 2048) : Fin 2500608 :=
  ⟨j % 1221 * 2048 + r.val, by have := Nat.mod_lt j (by decide : 0 < 1221); have := r.isLt; omega⟩

def add3 (c : Dev nD) (t : ℕ) : S2048x32.Idx → EReal := fun y =>
  ∑ r : Fin 2048, Cert.Spec.hit (t / 1221 * 2048 + (y 0).val) (dstA3 V c (ix2 0 (edge3 t r))) * msgA3 V c (ix2 (edge3 t r) (y 1))

theorem add3_apply (c : Dev nD) (t : ℕ) (p : Fin 2048) (q : Fin 32) :
    add3 V c t (ix2 p q)
      = ∑ r : Fin 2048, Cert.Spec.hit (t / 1221 * 2048 + p.val) (dstA3 V c (ix2 0 (edge3 t r))) * msgA3 V c (ix2 (edge3 t r) q) := rfl

theorem payAt3_apply (c : Dev nD) (t : Fin cfg3.N) (v18 : Vec Ideal S2048x32 .f32) (p : Fin 2048) (q : Fin 32) :
    k1_pay2 (grid3.coords t) (iblk3 V c 1 t) (iblk3 V c 0 t) v18 (ix2 p q) = v18 (ix2 p q) + add3 V c t.val (ix2 p q) := by
  refine (k1_pay2_apply (grid3.coords t) (iblk3 V c 1 t) (iblk3 V c 0 t) v18 p q).trans ?_
  refine congrArg (v18 (ix2 p q) + ·) ?_
  rw [add3_apply]
  refine Finset.sum_congr rfl fun r _ => ?_
  rw [coord3_0 t]
  exact congrArg₂ (· * ·) (congrArg (Cert.Spec.hit (t.val / 1221 * 2048 + p.val)) (iblk3_1_apply V c t r)) (iblk3_0_apply V c t r q)

theorem acc3_reset_eq (c : Dev nD) (t : ℕ) (h : t < cfg3.N) (h0 : t % 1221 = 0) :
    (outsAt3 V c t h).2 = fun y => 0 + add3 V c t y := by
  refine (acc3_reset V c ⟨t, h⟩ h0).trans ?_
  funext y
  obtain ⟨p, q, rfl⟩ : ∃ (p : Fin 2048) (q : Fin 32), y = ix2 p q := ⟨y 0, y 1, eq_ix2 y⟩
  refine (payAt3_apply V c ⟨t, h⟩ (k1_pay1 (F := Ideal)) p q).trans ?_
  rw [k1_pay1_apply]

theorem acc3_step_eq (c : Dev nD) (t : ℕ) (h : t < cfg3.N) (h0 : t % 1221 ≠ 0) :
    (outsAt3 V c t h).2 = fun y => (outsAt3 V c (t - 1) (Nat.lt_of_le_of_lt (Nat.sub_le _ _) h)).2 y + add3 V c t y := by
  refine (acc3_step V c ⟨t, h⟩ h0).trans ?_
  funext y
  obtain ⟨p, q, rfl⟩ : ∃ (p : Fin 2048) (q : Fin 32), y = ix2 p q := ⟨y 0, y 1, eq_ix2 y⟩
  exact payAt3_apply V c ⟨t, h⟩ _ p q

theorem acc3_closed (c : Dev nD) (b k : ℕ) (h : b * 1221 + k < cfg3.N) (hk : k < 1221) :
    (outsAt3 V c (b * 1221 + k) h).2 = fun y => ∑ j ∈ Finset.range (k + 1), add3 V c (b * 1221 + j) y :=
  Cert.Spec.acc_closed_lt 1221 cfg3.N (fun t h => (outsAt3 V c t h).2) (add3 V c)
    (acc3_reset_eq V c) (acc3_step_eq V c) b k h hk

abbrev G3 (c : Dev nD) : Cert.Spec.SNp.Idx → EReal := Cert.Spec.scatterG (msgA3 V c) (dstA3 V c)

theorem outsAt3_congr (c : Dev nD) {n n' : ℕ} (e : n = n') (h : n < cfg3.N) (h' : n' < cfg3.N) :
    outsAt3 V c n h = outsAt3 V c n' h' := by
  subst e; rfl

theorem emb3_2 (t : Fin cfg3.N) (p : Fin 2048) (q : Fin 32) :
    ((cfg3.win 2).blk t).view.emb (ix2 p q)
      = (ix2 (⟨t.val / 1221 * 2048 + p.val, by
          have ht : t.val < 59829 := lt_of_lt_of_eq t.isLt N_3; have := p.isLt; omega⟩ : Fin 100352) q : Cert.Spec.SNp.Idx) := by
  refine funext fun a => Fin.ext ?_
  match a with
  | ⟨0, _⟩ =>
    show win3_2.index t 0 * 2048 + 1 * p.val = t.val / 1221 * 2048 + p.val
    rw [show win3_2.index t 0 = t.val / 1221 from congrFun (index3_2 t) 0]; omega
  | ⟨1, _⟩ =>
    show win3_2.index t 1 * 32 + 1 * q.val = q.val
    rw [show win3_2.index t 1 = 0 from congrFun (index3_2 t) 1]; omega

theorem acc3_last (c : Dev nD) (t : Fin cfg3.N) (hl : t.val % 1221 = 1220) (p : Fin 2048) (q : Fin 32) :
    (outsAt3 V c t.val t.isLt).2 (ix2 p q)
      = G3 V c (ix2 (⟨t.val / 1221 * 2048 + p.val, by
          have ht : t.val < 59829 := lt_of_lt_of_eq t.isLt N_3; have := p.isLt; omega⟩ : Fin 100352) q) := by
  have ht : t.val < 59829 := lt_of_lt_of_eq t.isLt N_3
  have hN : cfg3.N = 59829 := N_3
  have e : t.val = t.val / 1221 * 1221 + 1220 := by omega
  have h' : t.val / 1221 * 1221 + 1220 < cfg3.N := lt_of_lt_of_eq (by omega : t.val / 1221 * 1221 + 1220 < 59829) hN.symm
  rw [outsAt3_congr V c e t.isLt h', acc3_closed V c (t.val / 1221) 1220 h' (by decide)]
  refine Cert.Spec.scatterG_blocks (msgA3 V c) (dstA3 V c) _ q
    (fun eb r => Cert.Spec.hit ((t.val / 1221 * 1221 + eb) / 1221 * 2048 + p.val) (dstA3 V c (ix2 0 (edge3 (t.val / 1221 * 1221 + eb) r)))
      * msgA3 V c (ix2 (edge3 (t.val / 1221 * 1221 + eb) r) q)) ?_
  intro eb r h
  have heb : eb < 1221 := by omega
  have e1 : (t.val / 1221 * 1221 + eb) / 1221 = t.val / 1221 := by omega
  have e2 : edge3 (t.val / 1221 * 1221 + eb) r = (⟨eb * 2048 + r.val, h⟩ : Fin 2500608) :=
    Fin.ext (by show (t.val / 1221 * 1221 + eb) % 1221 * 2048 + r.val = eb * 2048 + r.val; omega)
  show Cert.Spec.hit ((t.val / 1221 * 1221 + eb) / 1221 * 2048 + p.val) (dstA3 V c (ix2 0 (edge3 (t.val / 1221 * 1221 + eb) r)))
      * msgA3 V c (ix2 (edge3 (t.val / 1221 * 1221 + eb) r) q) = _
  rw [e1, e2]

theorem read_blk3_2 (t : Fin cfg3.N) (G : Cert.Spec.SNp.Idx → EReal) (p : Fin 2048) (q : Fin 32) :
    ((cfg3.win 2).blk t).view.read (Elt Ideal) G (ix2 p q) = G (((cfg3.win 2).blk t).view.emb (ix2 p q)) := rfl

theorem flushed3_eq (c : Dev nD) (t : Fin cfg3.N) (hf : (cfg3.win 2).flush t = true) :
    (dat3 V c).flushed 2 t = ((cfg3.win 2).blk t).view.read (Elt Ideal) (G3 V c) := by
  have hl : t.val % 1221 = 1220 := (flushAt3_2 t).mp hf
  show (cfg3.win 2).cut (grid3.coords t) ((dat3 V c).after 2 t) = _
  rw [after3_2, out3_flush V c t hl]
  funext y
  obtain ⟨p, q, rfl⟩ : ∃ (p : Fin 2048) (q : Fin 32), y = ix2 p q := ⟨y 0, y 1, eq_ix2 y⟩
  refine Eq.trans ?_ (read_blk3_2 t (G3 V c) p q).symm
  rw [emb3_2 t p q]
  exact acc3_last V c t hl p q

theorem mem_blk3 (t : Fin cfg3.N) (i : Cert.Spec.SNp.Idx) :
    i ∈ ((cfg3.win 2).blk t).view.set
      ↔ ∀ a : Fin 2, win3_2.index t a * S2048x32.size a ≤ (i a).val ∧ (i a).val < win3_2.index t a * S2048x32.size a + S2048x32.size a := by
  show i ∈ ((View.whole (Pipeline.arrRef spec3 2)).slice (win3_2.rect t)).set ↔ _
  rw [View.set_slice_whole, Rect.mem_set_unit]
  exact Iff.rfl

theorem cover3 (i : Cert.Spec.SNp.Idx) :
    ∃ t : Fin cfg3.N, (cfg3.win 2).flush t = true ∧ i ∈ ((cfg3.win 2).blk t).view.set := by
  have hi0 : (i 0).val < 100352 := (i 0).isLt
  have hi1 : (i 1).val < 32 := (i 1).isLt
  have hN : cfg3.N = 59829 := N_3
  have hlt : (i 0).val / 2048 * 1221 + 1220 < cfg3.N := lt_of_lt_of_eq (by omega : (i 0).val / 2048 * 1221 + 1220 < 59829) hN.symm
  refine ⟨⟨(i 0).val / 2048 * 1221 + 1220, hlt⟩, (flushAt3_2 _).mpr (by
    show ((i 0).val / 2048 * 1221 + 1220) % 1221 = 1220; omega), ?_⟩
  rw [mem_blk3]
  intro a
  match a with
  | ⟨0, _⟩ =>
    show win3_2.index ⟨(i 0).val / 2048 * 1221 + 1220, hlt⟩ 0 * 2048 ≤ (i 0).val
      ∧ (i 0).val < win3_2.index ⟨(i 0).val / 2048 * 1221 + 1220, hlt⟩ 0 * 2048 + 2048
    rw [show win3_2.index ⟨(i 0).val / 2048 * 1221 + 1220, hlt⟩ 0 = ((i 0).val / 2048 * 1221 + 1220) / 1221 from congrFun (index3_2 _) 0]
    omega
  | ⟨1, _⟩ =>
    show win3_2.index ⟨(i 0).val / 2048 * 1221 + 1220, hlt⟩ 1 * 32 ≤ (i 1).val
      ∧ (i 1).val < win3_2.index ⟨(i 0).val / 2048 * 1221 + 1220, hlt⟩ 1 * 32 + 32
    rw [show win3_2.index ⟨(i 0).val / 2048 * 1221 + 1220, hlt⟩ 1 = 0 from congrFun (index3_2 _) 1]
    omega

theorem arr3_eq (c : Dev nD) :
    ((dat3 (F := Ideal) V c).arrAt 2 cfg3.N : Cert.Spec.SNp.Idx → EReal)
      = Cert.Spec.scatterG (V c (Pipeline.arrRef spec3 0)) (V c (Pipeline.arrRef spec3 1)) :=
  (dat3 V c).arrAt_eq_of_cover 2 (G3 V c) (flushed3_eq V c) cover3

end Region

end Cert.KernelIdeal.Reg

end
-- ==== Proof.SpecEq.lean ====
import proofs.«430617_j5463198400657_1_alg».proof.Proof.Spec
import Idealize.ShloMosaic.Lib.ValueIdx
import Mathlib.Algebra.BigOperators.Fin
import Mathlib.Data.EReal.Basic

noncomputable section

open scoped BigOperators

namespace Cert.Spec

open Idealize.ShloMosaic Idealize.ShloMosaic.ValueIdx

theorem toInt_ofNat_small (n : Nat) (hn : n < 2 ^ 31) : (BitVec.ofNat 32 n).toInt = (n : Int) := by
  have h : (BitVec.ofNat 32 n).toNat = n := by rw [BitVec.toNat_ofNat]; omega
  rw [BitVec.toInt_eq_toNat_of_lt (by rw [h]; omega), h]

theorem ofNat_eq_iff (n : Nat) (hn : n < 2 ^ 31) (b : BitVec 32) : BitVec.ofNat 32 n = b ↔ b.toInt = (n : Int) := by
  constructor
  · rintro rfl; exact toInt_ofNat_small n hn
  · intro h; apply BitVec.eq_of_toInt_eq; rw [toInt_ofNat_small n hn, h]

theorem hit_eq (n : Nat) (hn : n < 2 ^ 31) (b : BitVec 32) : hit n b = if b.toInt = (n : Int) then 1 else 0 := by
  unfold hit
  by_cases h : b.toInt = (n : Int)
  · rw [if_pos ((ofNat_eq_iff n hn b).2 h), if_pos h]
  · rw [if_neg (fun h' => h ((ofNat_eq_iff n hn b).1 h')), if_neg h]

theorem sum_fin_split {M : Type*} [AddCommMonoid M] {N : Nat} (a : Nat) (ha : a ≤ N) (f : Fin N → M)
    (hz : ∀ i : Fin N, a ≤ i.val → f i = 0) : ∑ i, f i = ∑ i : Fin a, f (Fin.castLE ha i) := by
  obtain ⟨b, rfl⟩ := Nat.exists_eq_add_of_le ha
  rw [Fin.sum_univ_add, Finset.sum_eq_zero (fun i _ => hz (Fin.natAdd a i) (by simp)), add_zero]
  rfl

theorem sum_hit_node (b : BitVec 32) (h0 : 0 ≤ b.toInt) (h1 : b.toInt < 100352) (c : EReal) (f : Fin 100352 → EReal) :
    ∑ n : Fin 100352, (hit n.val b * c) * f n = c * f ⟨b.toInt.toNat, by omega⟩ := by
  rw [Finset.sum_eq_single (⟨b.toInt.toNat, by omega⟩ : Fin 100352)]
  · show (hit b.toInt.toNat b * c) * f ⟨b.toInt.toNat, _⟩ = c * f ⟨b.toInt.toNat, _⟩
    rw [hit_eq _ (by omega) b, if_pos (by omega), one_mul]
  · intro n _ hn
    have hne : ¬ b.toInt = (n.val : Int) := by
      intro h; apply hn; apply Fin.ext; show n.val = b.toInt.toNat; omega
    rw [hit_eq n.val (by have := n.isLt; omega) b, if_neg hne, zero_mul, zero_mul]
  · intro h; exact absurd (Finset.mem_univ _) h

theorem padRowI_real (r : Fin 2) (ei : SE2.Idx → BitVec 32) (e : Fin 2500608) (h : e.val < 2500000) :
    padRowI r ei (ix2 0 e) = ei (ix2 r ⟨e.val, h⟩) := dif_pos h
theorem padRowF_real (w : SE.Idx → EReal) (e : Fin 2500608) (h : e.val < 2500000) :
    padRowF w (ix2 0 e) = w (ix1 ⟨e.val, h⟩) := dif_pos h
theorem padRowF_pad (w : SE.Idx → EReal) (e : Fin 2500608) (h : ¬ e.val < 2500000) :
    padRowF w (ix2 0 e) = 0 := dif_neg h
theorem padRows_real (x : SN.Idx → EReal) (n : Fin 100352) (d : Fin 32) (h : n.val < 100000) :
    padRows x (ix2 n d) = x (ix2 ⟨n.val, h⟩ d) := dif_pos h

theorem gatherG_apply (xp : SNp.Idx → EReal) (sr : SEr.Idx → BitVec 32) (wr : SEr.Idx → EReal)
    (e : Fin 2500608) (d : Fin 32) :
    gatherG xp sr wr (ix2 e d) = ∑ n : Fin 100352, (hit n.val (sr (ix2 0 e)) * wr (ix2 0 e)) * xp (ix2 n d) := rfl
theorem scatterG_apply (msg : SEp.Idx → EReal) (dr : SEr.Idx → BitVec 32) (n : Fin 100352) (d : Fin 32) :
    scatterG msg dr (ix2 n d) = ∑ e : Fin 2500608, hit n.val (dr (ix2 0 e)) * msg (ix2 e d) := rfl

theorem gather_real (x : SN.Idx → EReal) (ei : SE2.Idx → BitVec 32) (w : SE.Idx → EReal)
    (e : Fin 2500608) (d : Fin 32) (he : e.val < 2500000)
    (h0 : 0 ≤ (ei (ix2 0 ⟨e.val, he⟩)).toInt) (h1 : (ei (ix2 0 ⟨e.val, he⟩)).toInt < 100000) :
    gatherG (padRows x) (padRowI 0 ei) (padRowF w) (ix2 e d)
      = w (ix1 ⟨e.val, he⟩) * x (ix2 ⟨(ei (ix2 0 ⟨e.val, he⟩)).toInt.toNat, by omega⟩ d) := by
  rw [gatherG_apply, padRowI_real 0 ei e he, padRowF_real w e he,
    sum_hit_node _ h0 (by omega) _ (fun n => padRows x (ix2 n d))]
  rw [padRows_real x _ d (by show (ei (ix2 0 ⟨e.val, he⟩)).toInt.toNat < 100000; omega)]

theorem gather_pad (x : SN.Idx → EReal) (ei : SE2.Idx → BitVec 32) (w : SE.Idx → EReal)
    (e : Fin 2500608) (d : Fin 32) (he : ¬ e.val < 2500000) :
    gatherG (padRows x) (padRowI 0 ei) (padRowF w) (ix2 e d) = 0 := by
  rw [gatherG_apply, padRowF_pad w e he]
  exact Finset.sum_eq_zero (fun n _ => by rw [mul_zero, zero_mul])

theorem scatter_eq (x : SN.Idx → EReal) (ei : SE2.Idx → BitVec 32) (w : SE.Idx → EReal)
    (hsrc : ∀ e : Fin 2500000, 0 ≤ (ei (ix2 0 e)).toInt ∧ (ei (ix2 0 e)).toInt < 100000)
    (n : Fin 100352) (d : Fin 32) :
    scatterG (gatherG (padRows x) (padRowI 0 ei) (padRowF w)) (padRowI 1 ei) (ix2 n d)
      = ∑ e : Fin 2500000, if (ei (ix2 1 e)).toInt = (n.val : Int)
          then x (ix2 ⟨(ei (ix2 0 e)).toInt.toNat, by have := hsrc e; omega⟩ d) * w (ix1 e) else 0 := by
  rw [scatterG_apply]
  rw [sum_fin_split 2500000 (by norm_num) _ (fun e he => by
    rw [gather_pad x ei w e d (by omega), mul_zero])]
  refine Finset.sum_congr rfl (fun e _ => ?_)
  have he : (Fin.castLE (by norm_num : 2500000 ≤ 2500608) e).val < 2500000 := e.isLt
  rw [padRowI_real 1 ei _ he, gather_real x ei w _ d he (hsrc e).1 (hsrc e).2,
    hit_eq n.val (by have := n.isLt; omega)]
  show (if (ei (ix2 1 e)).toInt = (n.val : Int) then (1 : EReal) else 0)
      * (w (ix1 e) * x (ix2 ⟨(ei (ix2 0 e)).toInt.toNat, _⟩ d)) = _
  by_cases h : (ei (ix2 1 e)).toInt = (n.val : Int)
  · rw [if_pos h, if_pos h, one_mul, mul_comm]
  · rw [if_neg h, if_neg h, zero_mul]

theorem rowOf_wrapIdx (b : BitVec 32) (h0 : 0 ≤ b.toInt) (h1 : b.toInt < 100000) :
    rowOf (wrapIdx b) = ⟨b.toInt.toNat, by omega⟩ := by
  unfold wrapIdx
  rw [if_neg (by omega)]
  apply Fin.ext
  show min b.toInt.toNat 99999 = b.toInt.toNat
  omega

theorem kernelLayer_apply (x : SN.Idx → EReal) (ei : SE2.Idx → BitVec 32) (w : SE.Idx → EReal)
    (n : Fin 100000) (d : Fin 32) :
    kernelLayer x ei w (ix2 n d)
      = scatterG (gatherG (padRows x) (padRowI 0 ei) (padRowF w)) (padRowI 1 ei)
          (ix2 (⟨n.val, by have := n.isLt; omega⟩ : Fin 100352) d) := rfl

theorem layer_apply (x : SN.Idx → EReal) (ei : SE2.Idx → BitVec 32) (w : SE.Idx → EReal)
    (n : Fin 100000) (d : Fin 32) :
    layer x ei w (ix2 n d)
      = ∑ e : Fin 2500000, if (ei (ix2 1 e)).toInt = (n.val : Int)
          then x (ix2 (rowOf (wrapIdx (ei (ix2 0 e)))) d) * w (ix1 e) else 0 := rfl

-- A mask keeps exactly the one matching term of each sum, so the masked round is the indexed one when every source entry is a node id.
theorem kernelLayer_eq (x : SN.Idx → EReal) (ei : SE2.Idx → BitVec 32) (w : SE.Idx → EReal)
    (hsrc : ∀ e : Fin 2500000, 0 ≤ (ei (ix2 0 e)).toInt ∧ (ei (ix2 0 e)).toInt < 100000) :
    kernelLayer x ei w = layer x ei w := by
  funext i
  obtain ⟨n, d, rfl⟩ : ∃ (n : Fin 100000) (d : Fin 32), i = ix2 n d := ⟨i 0, i 1, eq_ix2 i⟩
  rw [kernelLayer_apply, layer_apply, scatter_eq x ei w hsrc]
  refine Finset.sum_congr rfl (fun e _ => ?_)
  rw [rowOf_wrapIdx _ (hsrc e).1 (hsrc e).2]

end Cert.Spec

end
-- ==== Proof.KI.KernelValue.lean ====
import proofs.«430617_j5463198400657_1_alg».proof.Proof.KI.Asm
import proofs.«430617_j5463198400657_1_alg».proof.Proof.KI.HostRead
import proofs.«430617_j5463198400657_1_alg».proof.Proof.KI.Val0
import proofs.«430617_j5463198400657_1_alg».proof.Proof.KI.Val1
import proofs.«430617_j5463198400657_1_alg».proof.Proof.KI.Val2
import proofs.«430617_j5463198400657_1_alg».proof.Proof.KI.Val3
import proofs.«430617_j5463198400657_1_alg».proof.Proof.SpecEq

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL.Sem

section Value

open Cert.Spec

variable (m : (ℓ : Loc nD τ sig) → Buf (Elt Ideal) ℓ) (c : Dev nD)

abbrev argX : SN.Idx → EReal := m ((c : Thread nD τ).loc main_arg0)
abbrev argE : SE2.Idx → BitVec 32 := m ((c : Thread nD τ).loc main_arg1)
abbrev argW : SE.Idx → EReal := m ((c : Thread nD τ).loc main_arg2)

theorem o10_eq : (o10 m c : SEp.Idx → EReal)
    = gatherG (padRows (argX m c)) (padRowI 0 (argE m c)) (padRowF (argW m c)) := by
  have h := arr0_eq (V := E0 m) (c := c)
  rw [show (E0 m c (Pipeline.arrRef spec0 0) : SNp.Idx → EReal) = padRows (argX m c) from V9_v5 m c,
    show (E0 m c (Pipeline.arrRef spec0 1) : SEr.Idx → BitVec 32) = padRowI 0 (argE m c) from V9_v7 m c,
    show (E0 m c (Pipeline.arrRef spec0 2) : SEr.Idx → EReal) = padRowF (argW m c) from V9_v12 m c] at h
  exact h

theorem E1_v13 : E1 m c main_v13 = o10 m c := by
  show Function.update (T0 m c) (Proc.devRef .tc main_v13) (o10 m c) (Proc.devRef .tc main_v13) = _
  rw [Function.update_self]

theorem E1_v9 : (E1 m c main_v9 : SEr.Idx → BitVec 32) = padRowI 1 (argE m c) := by
  show Function.update (T0 m c) (Proc.devRef .tc main_v13) (o10 m c) (Proc.devRef .tc main_v9) = _
  rw [Function.update_of_ne (StableHlo.devRef_ne_of_ne (by decide))]
  exact V9_v9 m c

theorem o11_eq : (o11 m c : SNp.Idx → EReal)
    = scatterG (gatherG (padRows (argX m c)) (padRowI 0 (argE m c)) (padRowF (argW m c))) (padRowI 1 (argE m c)) := by
  have h := arr1_eq (V := E1 m) (c := c)
  rw [show (E1 m c (Pipeline.arrRef spec1 0) : SEp.Idx → EReal) = o10 m c from E1_v13 m c, o10_eq,
    show (E1 m c (Pipeline.arrRef spec1 1) : SEr.Idx → BitVec 32) = padRowI 1 (argE m c) from E1_v9 m c] at h
  exact h

theorem first_layer
    (hsrc : ∀ e : Fin 2500000, 0 ≤ (argE m c (ix2 0 e)).toInt ∧ (argE m c (ix2 0 e)).toInt < 100000) :
    cropRows (V11 m (oD m) c main_v14) = layer (argX m c) (argE m c) (argW m c) := by
  rw [V11_eq]
  have h : (T1' m c main_v14 : SNp.Idx → EReal) = o11 m c := by
    show Function.update (T1 m c) (Proc.devRef .tc main_v14) (o11 m c) (Proc.devRef .tc main_v14) = _
    rw [Function.update_self]
  rw [h, o11_eq]
  exact kernelLayer_eq (argX m c) (argE m c) (argW m c) hsrc

theorem E2_v17
    (hsrc : ∀ e : Fin 2500000, 0 ≤ (argE m c (ix2 0 e)).toInt ∧ (argE m c (ix2 0 e)).toInt < 100000) :
    (E2 m c main_v17 : SNp.Idx → EReal) = padRows (layer (argX m c) (argE m c) (argW m c)) := by
  show (T2 m c main_v17 : SNp.Idx → EReal) = _
  rw [← V20_eq, V20_v17, first_layer m c hsrc]

theorem E2_v19 : (E2 m c main_v19 : SEr.Idx → BitVec 32) = padRowI 0 (argE m c) := by
  show (T2 m c main_v19 : SEr.Idx → BitVec 32) = _
  rw [← V20_eq]; exact V20_v19 m (oD m) c

theorem E2_v24 : (E2 m c main_v24 : SEr.Idx → EReal) = padRowF (argW m c) := by
  show (T2 m c main_v24 : SEr.Idx → EReal) = _
  rw [← V20_eq]; exact V20_v24 m (oD m) c

theorem o21_eq
    (hsrc : ∀ e : Fin 2500000, 0 ≤ (argE m c (ix2 0 e)).toInt ∧ (argE m c (ix2 0 e)).toInt < 100000) :
    (o21 m c : SEp.Idx → EReal)
      = gatherG (padRows (layer (argX m c) (argE m c) (argW m c))) (padRowI 0 (argE m c)) (padRowF (argW m c)) := by
  have h := arr2_eq (V := E2 m) (c := c)
  rw [show (E2 m c (Pipeline.arrRef spec2 0) : SNp.Idx → EReal) = _ from E2_v17 m c hsrc,
    show (E2 m c (Pipeline.arrRef spec2 1) : SEr.Idx → BitVec 32) = _ from E2_v19 m c,
    show (E2 m c (Pipeline.arrRef spec2 2) : SEr.Idx → EReal) = _ from E2_v24 m c] at h
  exact h

theorem E3_v25 : E3 m c main_v25 = o21 m c := by
  show Function.update (T2 m c) (Proc.devRef .tc main_v25) (o21 m c) (Proc.devRef .tc main_v25) = _
  rw [Function.update_self]

theorem E3_v21 : (E3 m c main_v21 : SEr.Idx → BitVec 32) = padRowI 1 (argE m c) := by
  show Function.update (T2 m c) (Proc.devRef .tc main_v25) (o21 m c) (Proc.devRef .tc main_v21) = _
  rw [Function.update_of_ne (StableHlo.devRef_ne_of_ne (by decide))]
  show (T2 m c main_v21 : SEr.Idx → BitVec 32) = _
  rw [← V20_eq]; exact V20_v21 m (oD m) c

theorem o22_eq
    (hsrc : ∀ e : Fin 2500000, 0 ≤ (argE m c (ix2 0 e)).toInt ∧ (argE m c (ix2 0 e)).toInt < 100000) :
    (o22 m c : SNp.Idx → EReal)
      = scatterG (gatherG (padRows (layer (argX m c) (argE m c) (argW m c))) (padRowI 0 (argE m c)) (padRowF (argW m c)))
          (padRowI 1 (argE m c)) := by
  have h := arr3_eq (V := E3 m) (c := c)
  rw [show (E3 m c (Pipeline.arrRef spec3 0) : SEp.Idx → EReal) = o21 m c from E3_v25 m c, o21_eq m c hsrc,
    show (E3 m c (Pipeline.arrRef spec3 1) : SEr.Idx → BitVec 32) = _ from E3_v21 m c] at h
  exact h

-- The kernel's result: each kernel launch's array in closed form, chained through the host stretches.
theorem result_eq (m : (ℓ : Loc nD τ sig) → Buf (Elt Ideal) ℓ) (c : Dev nD)
    (hsrc : ∀ e : Fin 2500000, 0 ≤ ((m ((c : Thread nD τ).loc main_arg1) : Cert.Spec.SE2.Idx → BitVec 32) (ix2 0 e)).toInt
      ∧ ((m ((c : Thread nD τ).loc main_arg1) : Cert.Spec.SE2.Idx → BitVec 32) (ix2 0 e)).toInt < 100000) :
    (V23 m (oD m) c main_v27 : Cert.Spec.SN.Idx → EReal)
      = Cert.Spec.layer (Cert.Spec.layer (m ((c : Thread nD τ).loc main_arg0)) (m ((c : Thread nD τ).loc main_arg1)) (m ((c : Thread nD τ).loc main_arg2)))
          (m ((c : Thread nD τ).loc main_arg1)) (m ((c : Thread nD τ).loc main_arg2)) := by
  rw [V23_v27, V22_eq]
  have h : (T3' m c main_v26 : SNp.Idx → EReal) = o22 m c := by
    show Function.update (T3 m c) (Proc.devRef .tc main_v26) (o22 m c) (Proc.devRef .tc main_v26) = _
    rw [Function.update_self]
  rw [h, o22_eq m c hsrc]
  exact kernelLayer_eq (layer (argX m c) (argE m c) (argW m c)) (argE m c) (argW m c) hsrc

end Value

end Cert.KernelIdeal.Reg

end
-- ==== Proof.LibRows.lean ====
import Idealize.ShloMosaic.PureOps.Ideal
import Idealize.ShloMosaic.Lib.ValueIdx

noncomputable section

open scoped BigOperators

namespace Cert.LibRows

open Idealize.ShloMosaic Idealize.ShloMosaic.ValueIdx

abbrev gatherRows2 (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

def clampRow {w : Nat} (N : Nat) (hN : 0 < N) (x : BitVec w) : Fin N := ⟨min x.toInt.toNat (N - 1), by omega⟩

theorem gatherRows2_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (gatherRows2 N E C wf) x idx (ix2 e j) = x (ix2 (clampRow N hN (idx (ix2 e 0))) j) := by
  unfold Host.gather
  congr 1
  funext a
  refine Fin.ext ?_
  show (gatherRows2 N E C wf).start (ix2 e j) idx a + (gatherRows2 N E C wf).batchCoord (ix2 e j) a
    + (gatherRows2 N E C wf).offCoord (ix2 e j) a = _
  rw [GatherDims.batchCoord_eq_zero _ _ _ List.not_mem_nil]
  match a with
  | ⟨0, _⟩ =>
    show (gatherRows2 N E C wf).start (ix2 e j) idx (0 : Fin 2) + 0
      + (gatherRows2 N E C wf).offCoord (ix2 e j) (0 : Fin 2) = _
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows2 N E C wf).startIndexMap from List.mem_singleton.mpr rfl)]
    have hsi : (gatherRows2 N E C wf).siIdx (ix2 e j) ⟨List.idxOf (0 : Fin 2) (gatherRows2 N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRows2 N E C wf).start (ix2 e j) idx (1 : Fin 2) + 0
      + (gatherRows2 N E C wf).offCoord (ix2 e j) (1 : Fin 2) = j.val
    have h1 : (1 : Fin 2) ∉ (gatherRows2 N E C wf).startIndexMap := by
      show (1 : Fin 2) ∉ [(0 : Fin 2)]; decide
    have h2 : (1 : Fin 2) ∈ (gatherRows2 N E C wf).sKept :=
      (GatherDims.mem_sKept _ _).2 ⟨by show (1 : Fin 2) ∉ [(0 : Fin 2)]; decide, List.not_mem_nil⟩
    unfold GatherDims.start GatherDims.offCoord
    rw [dif_neg h1, dif_pos h2]
    simp only [Nat.zero_add]
    rfl

abbrev scatterRows2 (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

private theorem scatterRows2_siIdx {N E C : Nat}
    (wf : ScatterDims.WF ⟨2, ![N, C]⟩ ⟨2, ![E, 1]⟩ ⟨2, ![E, C]⟩ [1] [0] [0] 1)
    (j : (⟨2, ![E, C]⟩ : Shape).Idx) :
    (scatterRows2 N E C wf).siIdx j ⟨List.idxOf (0 : Fin 2) (scatterRows2 N E C wf).scatterDimsToOperandDims,
        List.idxOf_lt_length_iff.2 (List.mem_singleton.mpr rfl)⟩ = ix2 (j 0) 0 := by
  funext b; refine Fin.ext ?_
  match b with
  | ⟨0, _⟩ => rfl
  | ⟨1, _⟩ => rfl

private theorem scatterRows2_start0 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (scatterRows2 N E C wf).start j idx (0 : Fin 2) = (idx (ix2 (j 0) 0)).toInt := by
  unfold ScatterDims.start
  rw [dif_pos (show (0 : Fin 2) ∈ (scatterRows2 N E C wf).scatterDimsToOperandDims from List.mem_singleton.mpr rfl),
    scatterRows2_siIdx]
  rfl

private theorem scatterRows2_start1 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (scatterRows2 N E C wf).start j idx (1 : Fin 2) = 0 := by
  unfold ScatterDims.start
  rw [dif_neg (show (1 : Fin 2) ∉ [(0 : Fin 2)] by decide)]

private theorem scatterRows2_window0 {N E C : Nat}
    (wf : ScatterDims.WF ⟨2, ![N, C]⟩ ⟨2, ![E, 1]⟩ ⟨2, ![E, C]⟩ [1] [0] [0] 1)
    (j : (⟨2, ![E, C]⟩ : Shape).Idx) :
    (scatterRows2 N E C wf).window j (0 : Fin 2) = 0 := by
  unfold ScatterDims.window
  rw [dif_neg]
  show (0 : Fin 2) ∉ (List.finRange 2).filter (· ∉ [(0 : Fin 2)])
  decide

private theorem scatterRows2_window1 {N E C : Nat}
    (wf : ScatterDims.WF ⟨2, ![N, C]⟩ ⟨2, ![E, 1]⟩ ⟨2, ![E, C]⟩ [1] [0] [0] 1)
    (j : (⟨2, ![E, C]⟩ : Shape).Idx) :
    (scatterRows2 N E C wf).window j (1 : Fin 2) = (j 1).val := by
  have h : (1 : Fin 2) ∈ (scatterRows2 N E C wf).sKept := by
    show (1 : Fin 2) ∈ (List.finRange 2).filter (· ∉ [(0 : Fin 2)])
    decide
  unfold ScatterDims.window
  rw [dif_pos h]
  rfl

private theorem scatterRows2_resultIdx_iff {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (scatterRows2 N E C wf).resultIdx? j idx = some i
      ↔ (idx (ix2 (j 0) 0)).toInt = ((i 0).val : Int) ∧ (j 1).val = (i 1).val := by
  have hi0 := idx2_lt0 i
  have hi1 := idx2_lt1 i
  have hj1 := idx2_lt1 j
  unfold ScatterDims.resultIdx?
  constructor
  · intro h
    split at h
    · rename_i hh
      have h' := Option.some.inj h
      have h0 := congrArg (fun f => (f (0 : Fin 2)).val) h'
      have h1 := congrArg (fun f => (f (1 : Fin 2)).val) h'
      have hh0 := hh (0 : Fin 2)
      have hh1 := hh (1 : Fin 2)
      simp only [scatterRows2_start0, scatterRows2_start1, scatterRows2_window0, scatterRows2_window1] at h0 h1 hh0 hh1
      constructor <;> omega
    · exact absurd h (by simp)
  · rintro ⟨h0, h1⟩
    have hh : ∀ a, 0 ≤ (scatterRows2 N E C wf).start j idx a + ((scatterRows2 N E C wf).window j a : Int)
        ∧ (scatterRows2 N E C wf).start j idx a + ((scatterRows2 N E C wf).window j a : Int)
          < ((⟨2, ![N, C]⟩ : Shape).size a : Int) := by
      intro a
      match a with
      | ⟨0, _⟩ =>
        show 0 ≤ (scatterRows2 N E C wf).start j idx (0 : Fin 2) + ((scatterRows2 N E C wf).window j (0 : Fin 2) : Int)
          ∧ (scatterRows2 N E C wf).start j idx (0 : Fin 2) + ((scatterRows2 N E C wf).window j (0 : Fin 2) : Int) < (N : Int)
        rw [scatterRows2_start0, scatterRows2_window0]
        omega
      | ⟨1, _⟩ =>
        show 0 ≤ (scatterRows2 N E C wf).start j idx (1 : Fin 2) + ((scatterRows2 N E C wf).window j (1 : Fin 2) : Int)
          ∧ (scatterRows2 N E C wf).start j idx (1 : Fin 2) + ((scatterRows2 N E C wf).window j (1 : Fin 2) : Int) < (C : Int)
        rw [scatterRows2_start1, scatterRows2_window1]
        omega
    rw [dif_pos hh]
    congr 1
    funext a
    refine Fin.ext ?_
    match a with
    | ⟨0, _⟩ =>
      show ((scatterRows2 N E C wf).start j idx (0 : Fin 2) + ((scatterRows2 N E C wf).window j (0 : Fin 2) : Int)).toNat
        = (i 0).val
      rw [scatterRows2_start0, scatterRows2_window0]
      omega
    | ⟨1, _⟩ =>
      show ((scatterRows2 N E C wf).start j idx (1 : Fin 2) + ((scatterRows2 N E C wf).window j (1 : Fin 2) : Int)).toNat
        = (i 1).val
      rw [scatterRows2_start1, scatterRows2_window1]
      omega

theorem scatterAddRows2_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (j : Fin C) :
    Ideal.hostScatterAdd (scatterRows2 N E C wf) x idx upd (ix2 n j)
      = x (ix2 n j) + ∑ e : Fin E, if (idx (ix2 e 0)).toInt = (n.val : Int) then upd (ix2 e j) else 0 := by
  unfold Ideal.hostScatterAdd
  congr 1
  rw [Finset.sum_filter, sum_idx2]
  refine Finset.sum_congr rfl fun e _ => ?_
  have key : ∀ b : Fin C,
      (if (scatterRows2 N E C wf).resultIdx? (ix2 e b) idx = some (ix2 n j) then upd (ix2 e b) else 0)
        = if (idx (ix2 e 0)).toInt = (n.val : Int) then (if b = j then upd (ix2 e b) else 0) else 0 := by
    intro b
    simp only [scatterRows2_resultIdx_iff, ite_and]
    show (if (idx (ix2 e 0)).toInt = (n.val : Int) then (if b.val = j.val then upd (ix2 e b) else 0) else 0) = _
    simp only [Fin.val_inj]
  rw [Finset.sum_congr rfl fun b _ => key b]
  by_cases h : (idx (ix2 e 0)).toInt = (n.val : Int)
  · simp only [if_pos h, Finset.sum_ite_eq', Finset.mem_univ, if_true]
  · simp only [if_neg h, Finset.sum_const_zero]

end Cert.LibRows

end
-- ==== Proof.RefRead.lean ====
import proofs.«430617_j5463198400657_1_alg».proof.Proof.Gen.ReferenceIdeal.Run
import proofs.«430617_j5463198400657_1_alg».proof.Proof.Gen.ReferenceIdeal.Read
import proofs.«430617_j5463198400657_1_alg».proof.Proof.LibRows
import proofs.«430617_j5463198400657_1_alg».proof.Proof.Spec
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

theorem cmpi_slt_zero (b : BitVec 32) : IntOp.cmpi .slt b 0#32 = if b.toInt < 0 then 1#1 else 0#1 := by
  have h0 : (0#32 : BitVec 32).toInt = 0 := by decide
  unfold IntOp.cmpi
  show BitVec.ofBool (b.slt 0#32) = _
  unfold BitVec.slt
  rw [h0]
  by_cases h : b.toInt < 0
  · rw [if_pos h, decide_eq_true h]; rfl
  · rw [if_neg h, decide_eq_false h]; rfl

theorem select_wrap (b : BitVec 32) :
    Scalar.select (IntOp.cmpi .slt b 0#32) (IntOp.addi b 100000#32) b = Cert.Spec.wrapIdx b := by
  rw [cmpi_slt_zero]
  unfold Cert.Spec.wrapIdx IntOp.addi
  by_cases h : b.toInt < 0
  · rw [if_pos h, if_pos h, select_one]
  · rw [if_neg h, if_neg h, select_zero]

theorem idx_row0 (e : Fin 2500000) : Read.idx_main_v0 (Read.idx_main_v1 (ix1 e)) = ix2 0 e := by
  funext a
  match a with
  | ⟨0, _⟩ => rfl
  | ⟨1, _⟩ => exact Fin.ext (Nat.mod_eq_of_lt e.isLt)

theorem idx_row1 (e : Fin 2500000) : Read.idx_main_v2 (Read.idx_main_v3 (ix1 e)) = ix2 1 e := by
  funext a
  match a with
  | ⟨0, _⟩ => rfl
  | ⟨1, _⟩ => exact Fin.ext (Nat.mod_eq_of_lt e.isLt)

theorem idx_col_v9 (e : Fin 2500000) : Read.idx_main_v9 (ix2 e 0) = ix1 e := by
  funext a
  match a with
  | ⟨0, _⟩ => rfl
theorem idx_col_v15 (e : Fin 2500000) : Read.idx_main_v15 (ix2 e 0) = ix1 e := by
  funext a
  match a with
  | ⟨0, _⟩ => rfl
theorem idx_col_v22 (e : Fin 2500000) : Read.idx_main_v22 (ix2 e 0) = ix1 e := by
  funext a
  match a with
  | ⟨0, _⟩ => rfl
theorem idx_col_v28 (e : Fin 2500000) : Read.idx_main_v28 (ix2 e 0) = ix1 e := by
  funext a
  match a with
  | ⟨0, _⟩ => rfl

theorem idx_weight1 (e : Fin 2500000) (d : Fin 32) : Read.idx_main_v11 (Read.idx_main_v12 (ix2 e d)) = ix1 e := by
  funext a
  match a with
  | ⟨0, _⟩ => rfl
theorem idx_weight2 (e : Fin 2500000) (d : Fin 32) : Read.idx_main_v24 (Read.idx_main_v25 (ix2 e d)) = ix1 e := by
  funext a
  match a with
  | ⟨0, _⟩ => rfl

section Stages
variable (x1 : (⟨S2x2500000, .i32⟩ : BufTy).Contents (Elt Ideal)) (x2 : (⟨S2500000, .f32⟩ : BufTy).Contents (Elt Ideal))

theorem src_at (e : Fin 2500000) : Read.val_main_v1 (F := Ideal) x1 (ix1 e) = x1 (ix2 0 e) := by
  rw [Read.val_main_v1_apply, Read.val_main_v0_apply, idx_row0]

theorem dst_at (e : Fin 2500000) : Read.val_main_v3 (F := Ideal) x1 (ix1 e) = x1 (ix2 1 e) := by
  rw [Read.val_main_v3_apply, Read.val_main_v2_apply, idx_row1]

theorem start1_at (e : Fin 2500000) :
    Read.val_main_v9 (F := Ideal) x1 (ix2 e 0) = Cert.Spec.wrapIdx (x1 (ix2 0 e)) := by
  rw [Read.val_main_v9_apply, idx_col_v9, Read.val_main_v8_apply, Read.val_main_v5_apply, Read.val_main_v7_apply,
    Read.val_main_v4_apply, Read.val_main_c_apply, Read.val_main_v6_apply, Read.val_main_c_0_apply, src_at, select_wrap]

theorem start2_at (e : Fin 2500000) :
    Read.val_main_v22 (F := Ideal) x1 (ix2 e 0) = Cert.Spec.wrapIdx (x1 (ix2 0 e)) := by
  rw [Read.val_main_v22_apply, idx_col_v22, Read.val_main_v21_apply, Read.val_main_v18_apply, Read.val_main_v20_apply,
    Read.val_main_v17_apply, Read.val_main_c_1_apply, Read.val_main_v19_apply, Read.val_main_c_2_apply, src_at, select_wrap]

theorem scat1_at (e : Fin 2500000) : Read.val_main_v15 (F := Ideal) x1 (ix2 e 0) = x1 (ix2 1 e) := by
  rw [Read.val_main_v15_apply, idx_col_v15, dst_at]

theorem scat2_at (e : Fin 2500000) : Read.val_main_v28 (F := Ideal) x1 (ix2 e 0) = x1 (ix2 1 e) := by
  rw [Read.val_main_v28_apply, idx_col_v28, dst_at]

theorem weight1_at (e : Fin 2500000) (d : Fin 32) : Read.val_main_v12 (F := Ideal) x2 (ix2 e d) = x2 (ix1 e) := by
  rw [Read.val_main_v12_apply, Read.val_main_v11_apply, idx_weight1]

theorem weight2_at (e : Fin 2500000) (d : Fin 32) : Read.val_main_v25 (F := Ideal) x2 (ix2 e d) = x2 (ix1 e) := by
  rw [Read.val_main_v25_apply, Read.val_main_v24_apply, idx_weight2]

end Stages

theorem zero1_at (i : S100000x32.Idx) : Read.val_main_v14 (F := Ideal) i = (0 : EReal) := by
  rw [Read.val_main_v14_apply, Read.val_main_cst_apply, Ideal.ofBits_def, Ideal.ofBits_zero_f32]

theorem zero2_at (i : S100000x32.Idx) : Read.val_main_v27 (F := Ideal) i = (0 : EReal) := by
  rw [Read.val_main_v27_apply, Read.val_main_cst_3_apply, Ideal.ofBits_def, Ideal.ofBits_zero_f32]

theorem layer_read
    (y z : (⟨S100000x32, .f32⟩ : BufTy).Contents (Elt Ideal)) (x1 : (⟨S2x2500000, .i32⟩ : BufTy).Contents (Elt Ideal))
    (x2 : (⟨S2500000, .f32⟩ : BufTy).Contents (Elt Ideal)) (si di : (⟨S2500000x1, .i32⟩ : BufTy).Contents (Elt Ideal))
    (wv : (⟨S2500000x32, .f32⟩ : BufTy).Contents (Elt Ideal))
    (hz : ∀ i, z i = (0 : EReal))
    (hsi : ∀ e : Fin 2500000, si (ix2 e 0) = Cert.Spec.wrapIdx (x1 (ix2 0 e)))
    (hdi : ∀ e : Fin 2500000, di (ix2 e 0) = x1 (ix2 1 e))
    (hw : ∀ (e : Fin 2500000) (d : Fin 32), wv (ix2 e d) = x2 (ix1 e)) :
    Host.scatterAdd (F := Ideal) (φ := .f32) scatter_S100000x32_S2500000x1_S2500000x32_1_0_0_1 z di
        (mulf (F := Ideal) (φ := .f32) (Host.gather gather_S100000x32_S2500000x1_S2500000x32_1_0_n_n_0_1_132 y si) wv)
      = Cert.Spec.layer y x1 x2 := by
  funext i
  obtain ⟨n, d, rfl⟩ : ∃ (n : Fin 100000) (d : Fin 32), i = ix2 n d := ⟨i 0, i 1, eq_ix2 i⟩

  show Ideal.hostScatterAdd (Cert.LibRows.scatterRows2 100000 2500000 32 scatter_S100000x32_S2500000x1_S2500000x32_1_0_0_1_wf)
      z di (mulf (F := Ideal) (φ := .f32) (Host.gather gather_S100000x32_S2500000x1_S2500000x32_1_0_n_n_0_1_132 y si) wv) (ix2 n d)
    = ∑ e : Fin 2500000, if (x1 (ix2 1 e)).toInt = (n.val : Int) then
        y (ix2 (Cert.Spec.rowOf (Cert.Spec.wrapIdx (x1 (ix2 0 e)))) d) * x2 (ix1 e) else 0
  rw [Cert.LibRows.scatterAddRows2_apply, hz, zero_add]
  refine Finset.sum_congr rfl fun e _ => ?_

  have hm : mulf (F := Ideal) (φ := .f32) (Host.gather gather_S100000x32_S2500000x1_S2500000x32_1_0_n_n_0_1_132 y si) wv (ix2 e d)
      = y (ix2 (Cert.Spec.rowOf (Cert.Spec.wrapIdx (x1 (ix2 0 e)))) d) * x2 (ix1 e) := by
    rw [mulf_apply, hw]
    show Host.gather (Cert.LibRows.gatherRows2 100000 2500000 32 gather_S100000x32_S2500000x1_S2500000x32_1_0_n_n_0_1_132_wf)
        y si (ix2 e d) * x2 (ix1 e) = _
    rw [Cert.LibRows.gatherRows2_apply (by omega : 0 < 100000), hsi]
    rfl
  rw [hdi, hm]

theorem layer1_eq (x0 : (⟨S100000x32, .f32⟩ : BufTy).Contents (Elt Ideal)) (x1 : (⟨S2x2500000, .i32⟩ : BufTy).Contents (Elt Ideal)) (x2 : (⟨S2500000, .f32⟩ : BufTy).Contents (Elt Ideal)) :
    Read.val_main_v16 (F := Ideal) x0 x1 x2 = Cert.Spec.layer x0 x1 x2 := by
  unfold Read.val_main_v16 Read.val_main_v13 Read.val_main_v10
  exact layer_read x0 _ x1 x2 _ _ _ zero1_at (start1_at x1) (scat1_at x1) (weight1_at x2)

-- The reference's result, read operation by operation, is two rounds of its arguments.
theorem ref_eq (x0 : (⟨S100000x32, .f32⟩ : BufTy).Contents (Elt Ideal)) (x1 : (⟨S2x2500000, .i32⟩ : BufTy).Contents (Elt Ideal)) (x2 : (⟨S2500000, .f32⟩ : BufTy).Contents (Elt Ideal)) :
    Read.val_main_v29 (F := Ideal) x0 x1 x2 = Cert.Spec.layer (Cert.Spec.layer x0 x1 x2) x1 x2 := by
  unfold Read.val_main_v29 Read.val_main_v26 Read.val_main_v23
  rw [layer1_eq]
  exact layer_read _ _ x1 x2 _ _ _ zero2_at (start2_at x1) (scat2_at x1) (weight2_at x2)

end Cert.ReferenceIdeal.RefValue

end
-- ==== Proof.PreDecode.lean ====
import proofs.«430617_j5463198400657_1_alg».proof.Pre_finite_inputs
import Idealize.ShloMosaic.Lib.ValueIdx
import Idealize.ShloMosaic.Lib.ReduceAll
import Idealize.ShloMosaic.Lib.Pipeline.Value

namespace Cert.PreDecode

open Idealize.ShloMosaic Idealize.ShloMosaic.ValueIdx
open Cert.Pre_finite_inputs

instance : Subsingleton S_.Idx := ⟨fun a b => funext fun d => d.elim0⟩

theorem src_entry [Facts] (x1 : IVec S2x2500000 32) (e : Fin 2500000) :
    shapeCast S2500000 (extractStridedSlice S1x2500000 ![0, 0] x1 Facts.slices_S2x2500000_S1x2500000_0_0)
      Facts.shapeCasts_S1x2500000_S2500000 (ix1 e) = x1 (ix2 0 e) := by
  refine (shapeCast_apply _ Facts.shapeCasts_S1x2500000_S2500000 (ix1 e) (ix2 0 e) ?_).trans ?_
  · rewrite [Shape.rowMajor_val_two, Shape.rowMajor_val_one]
    show 0 * 2500000 + e.val = e.val
    omega
  · exact extractStridedSlice_apply ![0, 0] x1 Facts.slices_S2x2500000_S1x2500000_0_0 (ix2 0 e) (ix2 0 e) (fun a => match a with
      | ⟨0, _⟩ => by show 0 = 0 + 0; omega
      | ⟨1, _⟩ => by show e.val = 0 + e.val; omega)

theorem bcast_const [Facts] (c : BitVec 32) (j : S2500000.Idx) :
    broadcastInDim S2500000 ![] Facts.bcast_S_S2500000 (constantI S_ 32 c) j = c := rfl

theorem toInt_zero : (0#32 : BitVec 32).toInt = 0 := by decide
theorem toInt_nodes : (100000#32 : BitVec 32).toInt = 100000 := by decide

-- The precondition's last conjunct, read at an edge: its source entry lies in the node range.
theorem src_range_of_pre {F : FTy → Type} [FloatOps F] [Cert.Pre_finite_inputs.Facts]
    (x0 : FVec F Cert.Pre_finite_inputs.S100000x32 .f32) (x1 : IVec Cert.Pre_finite_inputs.S2x2500000 32) (x2 : FVec F Cert.Pre_finite_inputs.S2500000 .f32)
    (h : Cert.Pre_finite_inputs.fn (F := F) x0 x1 x2 = fun _ => 1#1) :
    ∀ e : Fin 2500000, 0 ≤ (x1 (ix2 0 e)).toInt ∧ (x1 (ix2 0 e)).toInt < 100000 := by
  intro e

  have h0 := congrFun h ix0
  dsimp only [Cert.Pre_finite_inputs.fn, Cert.Pre_finite_inputs.fn_part1] at h0

  obtain ⟨-, hall⟩ := IntOp.andi_eq_one.1 h0

  have he := Host.reduce_andi_all _ _ _ _ _ hall (ix1 e)

  obtain ⟨hge, hlt⟩ := IntOp.andi_eq_one.1 he

  have hge' := IntOp.cmpi_sge.1 hge
  have hlt' := IntOp.cmpi_slt.1 hlt

  rw [src_entry, bcast_const] at hge' hlt'
  rw [toInt_zero] at hge'
  rw [toInt_nodes] at hlt'
  exact ⟨hge', hlt'⟩

end Cert.PreDecode
-- ==== Proof.lean ====
/-
  Two rounds of weighted neighbour sums on a graph, `y[d] = Σ_{e : dst e = d} w e · x[src e]`. The kernel forms both
  the row lookup and the sum over incoming edges as products with 0/1 comparison matrices, block by block; the
  reference indexes the rows and scatter-adds. Over the extended reals a product with a 0/1 matrix keeps exactly the
  selected terms and a sum may be taken in any order, so the two agree wherever every source entry names a node (the
  precondition's added conjunct); a destination entry naming no node contributes nothing on either side.
-/
import proofs.«430617_j5463198400657_1_alg».proof.Defs
import proofs.«430617_j5463198400657_1_alg».proof.Proof.Gen.Kernel
import proofs.«430617_j5463198400657_1_alg».proof.Proof.Gen.KernelIdeal
import proofs.«430617_j5463198400657_1_alg».proof.Proof.Gen.ReferenceIdeal
import proofs.«430617_j5463198400657_1_alg».proof.Proof.Gen.Pre_finite_inputs
import proofs.«430617_j5463198400657_1_alg».proof.Proof.Gen.ReferenceIdeal.Run
import proofs.«430617_j5463198400657_1_alg».proof.Proof.Gen.ReferenceIdeal.Read
import proofs.«430617_j5463198400657_1_alg».proof.Proof.KI.Asm
import proofs.«430617_j5463198400657_1_alg».proof.Proof.KI.KernelValue
import proofs.«430617_j5463198400657_1_alg».proof.Proof.RefRead
import proofs.«430617_j5463198400657_1_alg».proof.Proof.PreDecode
import Idealize.ShloMosaic.Adequacy
import Idealize.ShloMosaic.Init

noncomputable section

namespace Cert.Proof

open Idealize.ShloMosaic Idealize.ShloMosaic.TcCoe Idealize.SL.Sem

-- The word-level program and its idealisation are one text, so their body tables agree label by label,
set_option maxHeartbeats 2000000 in
theorem defs₀_eq : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | 0, (t, s) => rfl
  | 1, (t, s) => rfl
  | 2, (t, s) => rfl
  | 3, (t, s) => rfl
  | ⟨_ + 4, h⟩, _ => exact absurd h (by omega)

-- and the frame, proved once for every number model, is read at machine words.
set_option maxHeartbeats 1000000 in
theorem frame_p : Cert.frame_Kernel (hKernel := Cert.Kernel.Gen.facts) (hPre_finite_inputs := Cert.Pre_finite_inputs.Gen.facts) :=
  fun m ρ _ => by
    show θ_run (Pipeline.defs Cert.Kernel.pcfgs Cert.Kernel.defs₀) _ _ _
    rw [defs₀_eq]
    exact Cert.KernelIdeal.Reg.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Reg.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.layer (Cert.Spec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Reg.run_all m ρ)
    have hsrc := Cert.PreDecode.src_range_of_pre _ _ _ (hpre c)
    exact ⟨(h c _ (mem_uc Cert.KernelIdeal.main_v27 (by decide))).trans (Cert.KernelIdeal.Reg.result_eq m c hsrc),
      (h c _ (mem_uc Cert.KernelIdeal.main_arg0 (by decide))).trans (Cert.KernelIdeal.Gen.V23_main_arg0 m _ c),
      (h c _ (mem_uc Cert.KernelIdeal.main_arg1 (by decide))).trans (Cert.KernelIdeal.Gen.V23_main_arg1 m _ c),
      (h c _ (mem_uc Cert.KernelIdeal.main_arg2 (by decide))).trans (Cert.KernelIdeal.Gen.V23_main_arg2 m _ c)⟩
  · refine (θ_run Cert.ReferenceIdeal.defs _ _).mono (fun _ h c => ⟨?_, (h c).2⟩) (Cert.ReferenceIdeal.Value.run (F := Ideal) m' ρ')
    rw [(h c).1]
    refine (Cert.ReferenceIdeal.Read.val_main_v29_eq _ _ _).trans ?_
    rw [Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
